-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x128 : Shape := ⟨2, ![500000, 128]⟩
abbrev S500000x2 : Shape := ⟨2, ![500000, 2]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S500000x2 : S_.BroadcastsInDim S500000x2 (![] : Fin 0 → Fin S500000x2.rank)
  reducesTo_S500000x2_S_d0_1 : S500000x2.ReducesTo [0, 1] S_

variable [Facts]

def fn_part2 {F : FTy → Type} [FloatOps F] (main_arg2 : IVec S500000x2 32) (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S500000x2 32 := broadcastInDim S500000x2 ![] bcast_S_S500000x2 main_c_14
  let main_v40 : IVec S500000x2 1 := cmpi .sge main_arg2 main_v39
  let main_c_15 : IVec S_ 32 := constantI S_ 32 50000#32
  let main_v41 : IVec S500000x2 32 := broadcastInDim S500000x2 ![] bcast_S_S500000x2 main_c_15
  let main_v42 : IVec S500000x2 1 := cmpi .slt main_arg2 main_v41
  let main_v43 : IVec S500000x2 1 := andi main_v40 main_v42
  let main_c_16 : IVec S_ 1 := constantI S_ 1 1#1
  let main_v44 : IVec S_ 1 := (fun x v => Host.reduce IntOp.andi x v reducesTo_S500000x2_S_d0_1 h_S_) main_v43 main_c_16
  let main_v45 : IVec S_ 1 := andi main_v38 main_v44
  main_v45

def fn_part1 {F : FTy → Type} [FloatOps F] (main_arg2 : IVec S500000x2 32) (main_arg5 : FVec F S256x128 .f32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg8 main_v33

def fn {F : FTy → Type} [FloatOps F] (main_arg0 : FVec F S50000x128 .f32) (main_arg1 : FVec F S500000x128 .f32) (main_arg2 : IVec S500000x2 32) (main_arg3 : FVec F S256x128 .f32) (main_arg4 : FVec F S128 .f32) (main_arg5 : FVec F S256x128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_v13 main_v16
-- ==== Kernel.lean ====
abbrev S50000x128 : Shape := ⟨2, ![50000, 128]⟩
abbrev S500000x128 : Shape := ⟨2, ![500000, 128]⟩
abbrev S500000x2 : Shape := ⟨2, ![500000, 2]⟩
abbrev S256x128 : Shape := ⟨2, ![256, 128]⟩
abbrev S128 : Shape := ⟨1, ![128]⟩
abbrev S_ : Shape := ⟨0, ![]⟩
abbrev S50176x128 : Shape := ⟨2, ![50176, 128]⟩
abbrev S2000x2 : Shape := ⟨2, ![2000, 2]⟩
abbrev S2000x128 : Shape := ⟨2, ![2000, 128]⟩
abbrev S1024x128 : Shape := ⟨2, ![1024, 128]⟩
abbrev S1x1024 : Shape := ⟨2, ![1, 1024]⟩
abbrev S2000x1 : Shape := ⟨2, ![2000, 1]⟩
abbrev S2000x1024 : Shape := ⟨2, ![2000, 1024]⟩
abbrev S2000x256 : Shape := ⟨2, ![2000, 256]⟩
abbrev S1x128 : Shape := ⟨2, ![1, 128]⟩
abbrev S51200x128 : Shape := ⟨2, ![51200, 128]⟩
abbrev S12800x128 : Shape := ⟨2, ![12800, 128]⟩
abbrev S1x1280 : Shape := ⟨2, ![1, 1280]⟩
abbrev S2000x1280 : Shape := ⟨2, ![2000, 1280]⟩
abbrev S1280x128 : Shape := ⟨2, ![1280, 128]⟩
abbrev S50176 : Shape := ⟨1, ![50176]⟩
abbrev S1024 : Shape := ⟨1, ![1024]⟩
abbrev S50000 : Shape := ⟨1, ![50000]⟩
abbrev S50000x1 : Shape := ⟨2, ![50000, 1]⟩
abbrev S1000x128 : Shape := ⟨2, ![1000, 128]⟩
abbrev S1000x1 : Shape := ⟨2, ![1000, 1]⟩
abbrev S1000 : Shape := ⟨1, ![1000]⟩

abbrev nBuf : Space → Nat
  | .hbm => 22
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S500000x128, .f32⟩
  | .hbm, ⟨2, _⟩ => ⟨S500000x2, .i32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S50000x128, .bf16⟩
  | .hbm, ⟨10, _⟩ => ⟨S_, .i32⟩
  | .hbm, ⟨11, _⟩ => ⟨S_, .bf16⟩
  | .hbm, ⟨12, _⟩ => ⟨S50176x128, .bf16⟩
  | .hbm, ⟨13, _⟩ => ⟨S500000x128, .bf16⟩
  | .hbm, ⟨14, _⟩ => ⟨S500000x128, .bf16⟩
  | .hbm, ⟨15, _⟩ => ⟨S500000x128, .bf16⟩
  | .hbm, ⟨16, _⟩ => ⟨S51200x128, .f32⟩
  | .hbm, ⟨17, _⟩ => ⟨S50000x128, .f32⟩
  | .hbm, ⟨18, _⟩ => ⟨S50176, .f32⟩
  | .hbm, ⟨19, _⟩ => ⟨S50000, .f32⟩
  | .hbm, ⟨20, _⟩ => ⟨S50000x1, .f32⟩
  | .hbm, ⟨21, _⟩ => ⟨S50000x128, .f32⟩
  | .local _ .vmem, ⟨0, _⟩ => ⟨S2000x2, .i32⟩
  | .local _ .vmem, ⟨1, _⟩ => ⟨S2000x2, .i32⟩
  | .local _ .vmem, ⟨2, _⟩ => ⟨S50176x128, .bf16⟩
  | .local _ .vmem, ⟨3, _⟩ => ⟨S2000x128, .bf16⟩
  | .local _ .vmem, ⟨4, _⟩ => ⟨S2000x128, .bf16⟩
  | .local _ .vmem, ⟨5, _⟩ => ⟨S256x128, .f32⟩
  | .local _ .vmem, ⟨6, _⟩ => ⟨S128, .f32⟩
  | .local _ .vmem, ⟨7, _⟩ => ⟨S256x128, .f32⟩
  | .local _ .vmem, ⟨8, _⟩ => ⟨S128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S2000x128, .bf16⟩
  | .local _ .vmem, ⟨13, _⟩ => ⟨S2000x128, .f32⟩
  | .local _ .vmem, ⟨14, _⟩ => ⟨S2000x128, .f32⟩
  | .local _ .vmem, ⟨15, _⟩ => ⟨S2000x2, .i32⟩
  | .local _ .vmem, ⟨16, _⟩ => ⟨S2000x2, .i32⟩
  | .local _ .vmem, ⟨17, _⟩ => ⟨S2000x128, .bf16⟩
  | .local _ .vmem, ⟨18, _⟩ => ⟨S2000x128, .bf16⟩
  | .local _ .vmem, ⟨19, _⟩ => ⟨S2000x128, .bf16⟩
  | .local _ .vmem, ⟨20, _⟩ => ⟨S2000x128, .bf16⟩
  | .local _ .vmem, ⟨21, _⟩ => ⟨S12800x128, .f32⟩
  | .local _ .vmem, ⟨22, _⟩ => ⟨S12800x128, .f32⟩
  | .local _ .vmem, ⟨23, _⟩ => ⟨S12800x128, .f32⟩
  | .local _ .vmem, ⟨24, _⟩ => ⟨S2000x2, .i32⟩
  | .local _ .vmem, ⟨25, _⟩ => ⟨S2000x2, .i32⟩
  | .local _ .vmem, ⟨26, _⟩ => ⟨S1024, .f32⟩
  | .local _ .vmem, ⟨27, _⟩ => ⟨S1024, .f32⟩
  | .local _ .vmem, ⟨28, _⟩ => ⟨S1024, .f32⟩
  | .local _ .vmem, ⟨29, _⟩ => ⟨S1000x128, .f32⟩
  | .local _ .vmem, ⟨30, _⟩ => ⟨S1000x128, .f32⟩
  | .local _ .vmem, ⟨31, _⟩ => ⟨S1000x1, .f32⟩
  | .local _ .vmem, ⟨32, _⟩ => ⟨S1000x1, .f32⟩
  | .local _ .vmem, ⟨33, _⟩ => ⟨S1000x128, .f32⟩
  | .local _ .vmem, ⟨34, _⟩ => ⟨S1000x128, .f32⟩
  | .local _ .vmem, ⟨35, _⟩ => ⟨S128, .f32⟩
  | .local _ .vmem, ⟨36, _⟩ => ⟨S128, .f32⟩
  | .local _ .vmem, ⟨37, _⟩ => ⟨S1000x128, .f32⟩
  | .local _ .vmem, ⟨38, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_scratch0 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨2, ![250, 49], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c48_i32 : BitVec 32 := 48#32
  let v38 : BitVec 1 := Scalar.cmpi .eq arg1 c48_i32
  let v39 : BitVec 32 := Scalar.extui v38
  let c0_i32_14 : BitVec 32 := 0#32
  let v40 : BitVec 1 := Scalar.cmpi .ne v39 c0_i32_14
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S50176x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![4, 250], ![false, false]⟩

@[reducible] def k1_t1_loop : Scf.Loop 32 :=
  let c0_i32_7 : BitVec 32 := 0#32
  let c10_i32 : BitVec 32 := 10#32
  let v9 : BitVec 32 := Scalar.addi c0_i32_7 c10_i32
  let c1_i32 : BitVec 32 := 1#32
  ⟨c0_i32_7, v9, c1_i32⟩
def k1_mult1 (k1_t1 : Fin k1_t1_loop.trips) : BitVec 32 :=
  let c0_i32_11 : BitVec 32 := 0#32
  let c0_i32_7 : BitVec 32 := 0#32
  let c1_i32 : BitVec 32 := 1#32
  let arg7 : BitVec 32 := Scf.iv c0_i32_7 c1_i32 k1_t1
  let c1_i32_10 : BitVec 32 := 1#32
  let v13 : BitVec 32 := Scalar.muli arg7 c1_i32_10
  let v14 : BitVec 32 := Scalar.addi c0_i32_11 v13
  let c1280_i32_13 : BitVec 32 := 1280#32
  let v36 : BitVec 32 := Scalar.muli v14 c1280_i32_13
  v36
def k1_off1 (k1_t1 : Fin k1_t1_loop.trips) : Fin 2 → Nat :=
  let c0_i32_11 : BitVec 32 := 0#32
  let c0_i32_7 : BitVec 32 := 0#32
  let c1_i32 : BitVec 32 := 1#32
  let arg7 : BitVec 32 := Scf.iv c0_i32_7 c1_i32 k1_t1
  let c1_i32_10 : BitVec 32 := 1#32
  let v13 : BitVec 32 := Scalar.muli arg7 c1_i32_10
  let v14 : BitVec 32 := Scalar.addi c0_i32_11 v13
  let c1280_i32_13 : BitVec 32 := 1280#32
  let v36 : BitVec 32 := Scalar.muli v14 c1280_i32_13
  let v37 : BitVec 32 := v36
  let v38 : Index := Scalar.indexCast v37
  let c0_14 : Index := 0#32
  ![v38.toNat, 0]
def k1_cond2 (i : grid1.Coords) : BitVec 1 :=
  let arg1 : BitVec 32 := BitVec.ofNat 32 (i 1).val
  let c249_i32 : BitVec 32 := 249#32
  let v10 : BitVec 1 := Scalar.cmpi .eq arg1 c249_i32
  let v11 : BitVec 32 := Scalar.extui v10
  let c0_i32_9 : BitVec 32 := 0#32
  let v12 : BitVec 1 := Scalar.cmpi .ne v11 c0_i32_9
  v12

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2000x2 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S12800x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![49, 250], ![false, false]⟩

def k2_cond2 (i : grid2.Coords) : BitVec 1 :=
  let arg1 : BitVec 32 := BitVec.ofNat 32 (i 1).val
  let c249_i32 : BitVec 32 := 249#32
  let v27 : BitVec 1 := Scalar.cmpi .eq arg1 c249_i32
  let v28 : BitVec 32 := Scalar.extui v27
  let c0_i32_6 : BitVec 32 := 0#32
  let v29 : BitVec 1 := Scalar.cmpi .ne v28 c0_i32_6
  v29

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage2_0 : Fin 2 → Memref sig .tc .vmem S2000x2 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bitsLt_bf16_f32 : FTy.bits .bf16 < FTy.bits .f32
  pads_S50000x128_S50176x128_01760_000 : S50000x128.Pads (![0, 0] : Fin 2 → Nat) ![176, 0] ![0, 0] S50176x128
  h_S_ : 0 < S_.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  h_S1024x128 : 0 < S1024x128.numel
  shapeCasts_S1024x128_S1024x128 : S1024x128.ShapeCasts S1024x128
  iota_S1x1024_d1_w32 : S1x1024.Iotas .tc 32 [1]
  inb_S2000x2_S2000x1_0_0 : ∀ a, (![0, 0] : Fin 2 → Nat) a + S2000x1.size a ≤ S2000x2.size a
  h_S2000x1 : 0 < S2000x1.numel
  inb_S2000x2_S2000x1_0_1 : ∀ a, (![0, 1] : Fin 2 → Nat) a + S2000x1.size a ≤ S2000x2.size a
  broadcasts_S2000x1_S2000x1024 : S2000x1.Broadcasts S2000x1024
  broadcasts_S1x1024_S2000x1024 : S1x1024.Broadcasts S2000x1024
  natLt_1_32 : 1 < 32
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  inb_S12800x128_S12800x128_0_0 : ∀ a, (![0, 0] : Fin 2 → Nat) a + S12800x128.size a ≤ S12800x128.size a
  h_S12800x128 : 0 < S12800x128.numel
  shapeCasts_S12800x128_S12800x128 : S12800x128.ShapeCasts S12800x128
  iota_S1x1280_d1_w32 : S1x1280.Iotas .tc 32 [1]
  broadcasts_S2000x1_S2000x1280 : S2000x1.Broadcasts S2000x1280
  broadcasts_S1x1280_S2000x1280 : S1x1280.Broadcasts S2000x1280
  h_S1280x128 : 0 < S1280x128.numel
  shapeCasts_S1280x128_S1280x128 : S1280x128.ShapeCasts S1280x128
  slices_S51200x128_S50000x128_0_0 : S51200x128.Slices ![0, 0] S50000x128
  inb_S1024_S1024_0 : ∀ a, (![0] : Fin 1 → Nat) a + S1024.size a ≤ S1024.size a
  h_S1024 : 0 < S1024.numel
  shapeCasts_S1024_S1024 : S1024.ShapeCasts S1024
  reduces_S2000x1024_S1024 : S2000x1024.Reduces [0] S1024
  slices_S50176_S50000_0 : S50176.Slices ![0] S50000
  shapeCasts_S50000_S50000x1 : S50000.ShapeCasts S50000x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  reduces_S1000x128_S1000 : S1000x128.Reduces [1] S1000
  shapeCasts_S1000_S1000x1 : S1000.ShapeCasts S1000x1
  broadcasts_S1x128_S1000x128 : S1x128.Broadcasts S1000x128
  dot_S2000x1024_S1024x128_S2000x128_1_0_0_1_n_n_wf : DotDims.WF S2000x1024 S1024x128 S2000x128 [1] [0] [0] [1] [] []
  dot_S2000x256_S256x128_S2000x128_1_0_0_1_n_n_wf : DotDims.WF S2000x256 S256x128 S2000x128 [1] [0] [0] [1] [] []
  dot_S2000x1280_S2000x128_S1280x128_0_0_1_1_n_n_wf : DotDims.WF S2000x1280 S2000x128 S1280x128 [0] [0] [1] [1] [] []
  hrank0 : 0 < grid0.rank
  k0_mult1_dvd : ∀ i : grid0.Coords, 1024 ∣ (k0_mult1 i).toNat
  k0_off1_inb : ∀ i : grid0.Coords, ∀ a, (k0_off1 i) a + S1024x128.size a ≤ S50176x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S500000x2.size a
  hwx0_0 : ∀ i : grid0.Coords, EltTy.bits .i32 = 32 ∨ (Rect.block (s := S500000x2) S2000x2.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50176x128.size a ≤ S50176x128.size a
  hwx0_1 : ∀ i : grid0.Coords, EltTy.bits .bf16 = 32 ∨ (Rect.block (s := S50176x128) S50176x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S500000x128.size a
  hwx0_2 : ∀ i : grid0.Coords, EltTy.bits .bf16 = 32 ∨ (Rect.block (s := S500000x128) S2000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S500000x128.size a
  hwx0_7 : ∀ i : grid0.Coords, EltTy.bits .bf16 = 32 ∨ (Rect.block (s := S500000x128) S2000x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S500000x128.size a
  hwx0_8 : ∀ i : grid0.Coords, EltTy.bits .bf16 = 32 ∨ (Rect.block (s := S500000x128) S2000x128.size (cc0_transform_8 i) (hinb0_8 i)).WholeWords (EltTy.packing .bf16)
  hrank1 : 0 < grid1.rank
  k1_t1_ok : k1_t1_loop.OK
  k1_mult1_dvd : ∀ k1_t1 : Fin k1_t1_loop.trips, 1280 ∣ (k1_mult1 k1_t1).toNat
  k1_off1_inb : ∀ k1_t1 : Fin k1_t1_loop.trips, ∀ a, (k1_off1 k1_t1) a + S1280x128.size a ≤ S12800x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x2.size a ≤ S500000x2.size a
  hwx1_0 : ∀ i : grid1.Coords, EltTy.bits .i32 = 32 ∨ (Rect.block (s := S500000x2) S2000x2.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S500000x128.size a
  hwx1_1 : ∀ i : grid1.Coords, EltTy.bits .bf16 = 32 ∨ (Rect.block (s := S500000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S500000x128.size a
  hwx1_2 : ∀ i : grid1.Coords, EltTy.bits .bf16 = 32 ∨ (Rect.block (s := S500000x128) S2000x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S12800x128.size a ≤ S51200x128.size a
  hwx1_3 : ∀ i : grid1.Coords, EltTy.bits .f32 = 32 ∨ (Rect.block (s := S51200x128) S12800x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x2.size a ≤ S500000x2.size a
  hwx2_0 : ∀ i : grid2.Coords, EltTy.bits .i32 = 32 ∨ (Rect.block (s := S500000x2) S2000x2.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024.size a ≤ S50176.size a
  hwx2_1 : ∀ i : grid2.Coords, EltTy.bits .f32 = 32 ∨ (Rect.block (s := S50176) S1024.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S50000x1.size a
  hwx3_1 : ∀ i : grid3.Coords, EltTy.bits .f32 = 32 ∨ (Rect.block (s := S50000x1) S1000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S50000x128.size a
  hwx3_2 : ∀ i : grid3.Coords, EltTy.bits .f32 = 32 ∨ (Rect.block (s := S50000x128) S1000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x128.size a ≤ S50000x128.size a
  hwx3_5 : ∀ i : grid3.Coords, EltTy.bits .f32 = 32 ∨ (Rect.block (s := S50000x128) S1000x128.size (cc3_transform_5 i) (hinb3_5 i)).WholeWords (EltTy.packing .f32)

variable [Facts₀]

def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x1280_S2000x128_S1280x128_0_0_1_1_n_n : DotDims S2000x1280 S2000x128 S1280x128 where
  lhsContracting := [0]
  rhsContracting := [0]
  lhsNonContracting := [1]
  rhsNonContracting := [1]
  lhsBatch := []
  rhsBatch := []
  wf := dot_S2000x1280_S2000x128_S1280x128_0_0_1_1_n_n_wf

abbrev win0_0 : Pipeline.Window sig grid0 :=
  Pipeline.Window.ofSpec (Memref.whole main_arg2) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S50176x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_arg2) S2000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S12800x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg2) S2000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev idle2 : Fin 2 → grid2.Coords → Bool := fun | 0 => fun _ => false | 1 => fun i => !(k2_cond2 i == 1#1) | ⟨_ + 2, h⟩ => absurd h (Nat.not_lt.2 (Nat.le_add_left _ _))

abbrev win3_0 : Pipeline.Window sig grid3 :=
  Pipeline.Window.ofSpec (Memref.whole main_v5) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S1000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v9) S1000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S500000x128 : Shape := ⟨2, ![500000, 128]⟩
abbrev S500000x2 : Shape := ⟨2, ![500000, 2]⟩
abbrev S256x128 : Shape := ⟨2, ![256, 128]⟩
abbrev S128 : Shape := ⟨1, ![128]⟩
abbrev S500000x1 : Shape := ⟨2, ![500000, 1]⟩
abbrev S500000 : Shape := ⟨1, ![500000]⟩
abbrev S_ : Shape := ⟨0, ![]⟩
abbrev S500000x256 : Shape := ⟨2, ![500000, 256]⟩
abbrev S1x128 : Shape := ⟨2, ![1, 128]⟩
abbrev S1000000 : Shape := ⟨1, ![1000000]⟩
abbrev S1000000x128 : Shape := ⟨2, ![1000000, 128]⟩
abbrev S1000000x1 : Shape := ⟨2, ![1000000, 1]⟩
abbrev S50000 : Shape := ⟨1, ![50000]⟩
abbrev S50000x1 : Shape := ⟨2, ![50000, 1]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500000x128, .f32⟩
  | .hbm, ⟨2, _⟩ => ⟨S500000x2, .i32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S500000x1, .i32⟩
  | .hbm, ⟨10, _⟩ => ⟨S500000, .i32⟩
  | .hbm, ⟨11, _⟩ => ⟨S500000x1, .i32⟩
  | .hbm, ⟨12, _⟩ => ⟨S500000, .i32⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S500000x1, .i32⟩
  | .hbm, ⟨21, _⟩ => ⟨S500000x128, .f32⟩
  | .hbm, ⟨22, _⟩ => ⟨S500000x256, .f32⟩
  | .hbm, ⟨23, _⟩ => ⟨S500000x128, .f32⟩
  | .hbm, ⟨24, _⟩ => ⟨S1x128, .f32⟩
  | .hbm, ⟨25, _⟩ => ⟨S500000x128, .f32⟩
  | .hbm, ⟨26, _⟩ => ⟨S500000x128, .f32⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S500000x128, .f32⟩
  | .hbm, ⟨36, _⟩ => ⟨S500000x256, .f32⟩
  | .hbm, ⟨37, _⟩ => ⟨S500000x128, .f32⟩
  | .hbm, ⟨38, _⟩ => ⟨S1x128, .f32⟩
  | .hbm, ⟨39, _⟩ => ⟨S500000x128, .f32⟩
  | .hbm, ⟨40, _⟩ => ⟨S500000x128, .f32⟩
  | .hbm, ⟨41, _⟩ => ⟨S1000000, .i32⟩
  | .hbm, ⟨42, _⟩ => ⟨S1000000x128, .f32⟩
  | .hbm, ⟨43, _⟩ => ⟨S_, .f32⟩
  | .hbm, ⟨44, _⟩ => ⟨S50000x128, .f32⟩
  | .hbm, ⟨45, _⟩ => ⟨S1000000x1, .i32⟩
  | .hbm, ⟨46, _⟩ => ⟨S50000x128, .f32⟩
  | .hbm, ⟨47, _⟩ => ⟨S_, .f32⟩
  | .hbm, ⟨48, _⟩ => ⟨S1000000, .f32⟩
  | .hbm, ⟨49, _⟩ => ⟨S_, .f32⟩
  | .hbm, ⟨50, _⟩ => ⟨S50000, .f32⟩
  | .hbm, ⟨51, _⟩ => ⟨S1000000x1, .i32⟩
  | .hbm, ⟨52, _⟩ => ⟨S50000, .f32⟩
  | .hbm, ⟨53, _⟩ => ⟨S50000x1, .f32⟩
  | .hbm, ⟨54, _⟩ => ⟨S_, .f32⟩
  | .hbm, ⟨55, _⟩ => ⟨S50000x1, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .i1⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000, .f32⟩
  | .hbm, ⟨69, _⟩ => ⟨S50000x1, .f32⟩
  | .hbm, ⟨70, _⟩ => ⟨S_, .f32⟩
  | .hbm, ⟨71, _⟩ => ⟨S50000x1, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000, .f32⟩
  | .hbm, ⟨78, _⟩ => ⟨S50000x1, .f32⟩
  | .hbm, ⟨79, _⟩ => ⟨S_, .f32⟩
  | .hbm, ⟨80, _⟩ => ⟨S50000x1, .f32⟩
  | .hbm, ⟨81, _⟩ => ⟨S50000x1, .f32⟩
  | .hbm, ⟨82, _⟩ => ⟨S50000x128, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x1, .f32⟩
  | .hbm, ⟨89, _⟩ => ⟨S50000x1, .f32⟩
  | .hbm, ⟨90, _⟩ => ⟨S50000x1, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]

class Facts₀ : Prop where
  slices_S500000x2_S500000x1_0_0 : S500000x2.Slices ![0, 0] S500000x1
  shapeCasts_S500000x1_S500000 : S500000x1.ShapeCasts S500000
  slices_S500000x2_S500000x1_0_1 : S500000x2.Slices ![0, 1] S500000x1
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  concatenates_S500000_S500000_S1000000_d0 : Shape.Concatenates [S500000, S500000] S1000000 0
  concatenates_S500000x128_S500000x128_S1000000x128_d0 : Shape.Concatenates [S500000x128, S500000x128] S1000000x128 0
  bcast_S_S50000x128 : S_.BroadcastsInDim S50000x128 (![] : Fin 0 → Fin S50000x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S1x128_S50000x128_0_1 : S1x128.BroadcastsInDim S50000x128 (![0, 1] : Fin 2 → Fin S50000x128.rank)
  gather_S50000x128_S500000x1_S500000x128_1_0_n_n_0_1_1128_wf : GatherDims.WF S50000x128 S500000x1 S500000x128 [1] [0] [] [0] [] 1 ![1, 128]
  dot_S500000x256_S256x128_S500000x128_1_0_0_1_n_n_wf : DotDims.WF S500000x256 S256x128 S500000x128 [1] [0] [0] [1] [] []
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf

class Facts : Prop extends Facts₀ where

variable [Facts]
-- ==== Proof.K.Launch.lean ====
import proofs.«423191_j44616120271607_3_alg».proof.Proof.Gen.Kernel.Launch
import proofs.«423191_j44616120271607_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Ent : Type := (c : Dev nD) → (b : Ref sig .tc) → Buf (Elt F) ((c : Thread nD τ).loc b)

/-- What a stage is certified from, at any contents `V` of the buffers on entry. -/
structure Half (cfg : Pipeline.Cfg sig Λ₀) where
  dat : Ent (F := F) → (c : Dev nD) → Dat τ (Elt F) Unit ℕ (UR sig nD τ) ℕ cfg c
  A_eq : ∀ V c w, (dat V c).A w = V c (Pipeline.arrRef cfg.spec w)
  q_eq : ∀ V c w, (dat V c).q w = fullShare
  owed_eq : ∀ V c t, (dat V c).owed t = 0
  rec_eq : ∀ V c t, (dat V c).recorded t = Set.univ
  body : ∀ V c, BodyObligation (dat V c) (defs₀ (F := F)) Variants.none () Set.univ
  hin : ∀ V c, (Pipeline.ΦA cfg.spec c : sProp 𝕄) ⊢ (dat V c).Φ 0
  hout : ∀ V c, (dat V c).Φ (Fin.last cfg.N) ⊢ (Pipeline.ΦA cfg.spec c : sProp 𝕄)

abbrev Half0 := Half (F := F) cfg0
abbrev Half1 := Half (F := F) cfg1
abbrev Half2 := Half (F := F) cfg2
abbrev Half3 := Half (F := F) cfg3

section Stage

variable {cfg : Pipeline.Cfg sig Λ₀} (h : Half (F := F) cfg) (W : Dev nD → Valuation τ sig (Elt F)) (c : Dev nD)

/-- What a stage entered at `W` leaves: its arrays at their last contents, every other buffer as entered. -/
abbrev Half.next : Valuation τ sig (Elt F) :=
  Pipeline.withArrays cfg.spec c (W c) fun w => (h.dat (fun c b => W c b) c).arrAt w cfg.N

/-- An input array's contents do not change along the stage. -/
theorem Half.next_in (hinj : Function.Injective (Pipeline.arrRef cfg.spec)) (w : Fin cfg.W) (hw : (cfg.win w).isOut = false) :
    h.next W c (Proc.devRef .tc (Pipeline.arrRef cfg.spec w)) = W c (Proc.devRef .tc (Pipeline.arrRef cfg.spec w)) :=
  (Pipeline.withArrays_arr _ hinj c _ _ w).trans (((h.dat _ c).arrAt_in w hw _).trans (h.A_eq _ c w))

/-- Nor do those of any buffer that is no output array of the stage. -/
theorem Half.next_keep (hinj : Function.Injective (Pipeline.arrRef cfg.spec)) (b : Ref sig .tc)
    (hb : ∀ w, (cfg.win w).isOut = true → Pipeline.arrRef cfg.spec w ≠ b) :
    h.next W c (Proc.devRef .tc b) = W c (Proc.devRef .tc b) := by
  by_cases e : ∃ w, Pipeline.arrRef cfg.spec w = b
  · obtain ⟨w, rfl⟩ := e
    exact h.next_in W c hinj w (Bool.eq_false_iff.mpr fun hw => hb w hw rfl)
  · exact Pipeline.withArrays_of_ne _ c _ _ b fun w hw => e ⟨w, hw⟩

end Stage

variable (h0 : Half0 (F := F)) (h1 : Half1 (F := F)) (h2 : Half2 (F := F)) (h3 : Half3 (F := F))
variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : Ent (F := F) := fun c b => W3 m c b
def W4 (c : Dev nD) : Valuation τ sig (Elt F) :=
  Pipeline.withArrays spec0 c (W3 m c) fun w => (h0.dat (V3 m) c).arrAt w cfg0.N
abbrev V4 : Ent (F := F) := fun c b => W4 h0 m c b
def W5 (c : Dev nD) : Valuation τ sig (Elt F) :=
  Pipeline.withArrays spec1 c (W4 h0 m c) fun w => (h1.dat (V4 h0 m) c).arrAt w cfg1.N
abbrev W6 : Dev nD → Valuation τ sig (Elt F) := fun c => StableHlo.after hostOps2 (W5 h0 h1 m c)
abbrev V6 : Ent (F := F) := fun c b => W6 h0 h1 m c b
def W7 (c : Dev nD) : Valuation τ sig (Elt F) :=
  Pipeline.withArrays spec2 c (W6 h0 h1 m c) fun w => (h2.dat (V6 h0 h1 m) c).arrAt w cfg2.N
abbrev W8 : Dev nD → Valuation τ sig (Elt F) := fun c => StableHlo.after hostOps3 (W7 h0 h1 h2 m c)
abbrev V8 : Ent (F := F) := fun c b => W8 h0 h1 h2 m c b
def W9 (c : Dev nD) : Valuation τ sig (Elt F) :=
  Pipeline.withArrays spec3 c (W8 h0 h1 h2 m c) fun w => (h3.dat (V8 h0 h1 h2 m) c).arrAt w cfg3.N

theorem W4_arr (c : Dev nD) (w : Fin cfg0.W) :
    W4 h0 m c (Proc.devRef .tc (Pipeline.arrRef spec0 w)) = (h0.dat (V3 m) c).arrAt w cfg0.N :=
  Pipeline.withArrays_arr spec0 launch0.win.arr_inj c _ _ w
theorem W4_of_ne (c : Dev nD) (b : Ref sig .tc) (hb : ∀ w, Pipeline.arrRef spec0 w ≠ b) :
    W4 h0 m c (Proc.devRef .tc b) = W3 m c (Proc.devRef .tc b) :=
  Pipeline.withArrays_of_ne spec0 c _ _ b hb
theorem W4_in (c : Dev nD) (w : Fin cfg0.W) (hw : (cfg0.win w).isOut = false) :
    W4 h0 m c (Proc.devRef .tc (Pipeline.arrRef spec0 w)) = W3 m c (Proc.devRef .tc (Pipeline.arrRef spec0 w)) :=
  h0.next_in (W3 m) c launch0.win.arr_inj w hw

theorem W5_arr (c : Dev nD) (w : Fin cfg1.W) :
    W5 h0 h1 m c (Proc.devRef .tc (Pipeline.arrRef spec1 w)) = (h1.dat (V4 h0 m) c).arrAt w cfg1.N :=
  Pipeline.withArrays_arr spec1 launch1.win.arr_inj c _ _ w
theorem W5_of_ne (c : Dev nD) (b : Ref sig .tc) (hb : ∀ w, Pipeline.arrRef spec1 w ≠ b) :
    W5 h0 h1 m c (Proc.devRef .tc b) = W4 h0 m c (Proc.devRef .tc b) :=
  Pipeline.withArrays_of_ne spec1 c _ _ b hb
theorem W5_in (c : Dev nD) (w : Fin cfg1.W) (hw : (cfg1.win w).isOut = false) :
    W5 h0 h1 m c (Proc.devRef .tc (Pipeline.arrRef spec1 w)) = W4 h0 m c (Proc.devRef .tc (Pipeline.arrRef spec1 w)) :=
  h1.next_in (W4 h0 m) c launch1.win.arr_inj w hw

theorem W7_arr (c : Dev nD) (w : Fin cfg2.W) :
    W7 h0 h1 h2 m c (Proc.devRef .tc (Pipeline.arrRef spec2 w)) = (h2.dat (V6 h0 h1 m) c).arrAt w cfg2.N :=
  Pipeline.withArrays_arr spec2 launch2.win.arr_inj c _ _ w
theorem W7_of_ne (c : Dev nD) (b : Ref sig .tc) (hb : ∀ w, Pipeline.arrRef spec2 w ≠ b) :
    W7 h0 h1 h2 m c (Proc.devRef .tc b) = W6 h0 h1 m c (Proc.devRef .tc b) :=
  Pipeline.withArrays_of_ne spec2 c _ _ b hb

/-- A buffer that no host stretch writes and no stage has among its output arrays ends as launched. -/
theorem W9_kept (c : Dev nD) (b : Ref sig .tc)
    (hb : (b ∉ hostOps0_W ∧ b ∉ hostOps0_1_W ∧ b ∉ hostOps0_2_W ∧ b ∉ hostOps2_W ∧ b ∉ hostOps3_W)
      ∧ ∀ (p : Fin 4) w, ((cfgs p).win w).isOut = true → Pipeline.arrRef (cfgs p).spec w ≠ b) :
    W9 h0 h1 h2 h3 m c (Proc.devRef .tc b) = m ((c : Thread nD τ).loc b) :=
  (h3.next_keep (W8 h0 h1 h2 m) c launch3.win.arr_inj b (hb.2 3)).trans <|
  (StableHlo.after_of_writes_sub hostOps3 _ hostOps3_writes hb.1.2.2.2.2).trans <|
  (h2.next_keep (W6 h0 h1 m) c launch2.win.arr_inj b (hb.2 2)).trans <|
  (StableHlo.after_of_writes_sub hostOps2 _ hostOps2_writes hb.1.2.2.2.1).trans <|
  (h1.next_keep (W4 h0 m) c launch1.win.arr_inj b (hb.2 1)).trans <|
  (h0.next_keep (W3 m) c launch0.win.arr_inj b (hb.2 0)).trans <|
  (StableHlo.after_of_writes_sub hostOps0_2 _ hostOps0_2_writes hb.1.2.2.1).trans <|
  (StableHlo.after_of_writes_sub hostOps0_1 _ hostOps0_1_writes hb.1.2.1).trans <|
  StableHlo.after_of_writes_sub hostOps0 _ hostOps0_writes hb.1.1

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- Between two items every buffer holds the contents `W`. -/
abbrev stateAt (W : Dev nD → Valuation τ sig (Elt F)) (c : Dev nD) : sProp 𝕄 :=
  iprop(StableHlo.held (c : Thread nD τ) (Pipeline.ucRefs τ sig) (W c) ∗ R c)

section Stages

variable (H : (p : Fin 4) → Half (F := F) (cfgs p)) (Wp : Fin 4 → Dev nD → Valuation τ sig (Elt F))

/-- Every stage's proof data at the contents the stage is entered from. -/
def stageDat (p : Fin 4) (c : Dev nD) : Dat τ (Elt F) Unit ℕ (UR sig nD τ) ℕ (Pipeline.pin (pcfgs (F := F)) adm p) c :=
  (H p).dat (fun c b => Wp p c b) c

set_option backward.isDefEq.respectTransparency.types false in
/-- Stage `p` as a segment from `stateAt (Wp p)` to the state at what the stage leaves. -/
def stageSeg (p : Fin 4) (l : Pipeline.LaunchFacts (nD := nD) (τ := τ) cfgs p) :
    Pipeline.RegionSeg (pcfgs (F := F)) adm (stageDat H Wp) () defs₀ 𝒱₀ L lv p where
  win := l.win.to₀
  block_pos := l.block_pos
  stage_whole := l.stage_whole
  K := PEmpty
  osem k := k.elim
  ho := Pipeline.OwnSemFacts.none _
  hbody c := ((H p).body _ c).loose
  hwaits := Pipeline.hwaits_of_owed_zero _ _ _ _ L lv p fun c t => (H p).owed_eq _ c t
  pre := stateAt (Wp p)
  post := stateAt ((H p).next (Wp p))
  X c := iprop(∃ r, prngReg c r)
  Y c := iprop(∃ r, prngReg c r)
  Z c := Pipeline.unscopedRest (Ix := Unit) (Name := ℕ) (U := UR sig nD τ) (Lvl := ℕ) (cfgs p).spec c (fun b => Wp p c (Proc.devRef .tc b))
  hentry c := by
    rw [Pipeline.ownSems0_none]
    have hsplit := Pipeline.arrays_of_unscopedBufs (p := p) (pcfgs (F := F)) adm (stageDat H Wp) l.win l.arr_whole c
      ((stageDat H Wp p c).share_full fun w => (H p).q_eq _ c w) (fun b => Wp p c (Proc.devRef .tc b)) fun w => (H p).A_eq _ c w
    rw [Pipeline.unscopedBufs_held] at hsplit
    iintro ⟨⟨Hub, Hp, HO⟩, -, -⟩
    ihave H' := hsplit $$ Hub
    icases H' with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (stageDat H Wp p c).owed 0 = 0 from (H p).owed_eq _ c 0]
      icases HO with ⟨%W, HO⟩; iexists W; isplitr
      · ipureintro; exact fun _ _ => Or.inl (((H p).rec_eq _ c 0).symm ▸ Set.mem_univ _)
      iexact HO
    isplitl [Hp]; · iexact Hp
    iexact Hrest
  hin c := (show _ ⊢ (Pipeline.ΦA (cfgs p).spec c : sProp 𝕄) from by
    unfold Pipeline.ΦA
    iintro ⟨Hp, -, Hr⟩
    isplitl [Hr]; · iexact Hr
    iexact Hp).trans ((H p).hin _ c)
  hout c := ((H p).hout _ c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := p) (pcfgs (F := F)) adm (Ix := Unit) (Name := ℕ) (U := UR sig nD τ) (Lvl := ℕ)
      l.win l.arr_whole c (stageDat H Wp) ((stageDat H Wp p c).share_full fun w => (H p).q_eq _ c w)
      (fun b => Wp p c (Proc.devRef .tc b)) (fun b => (H p).next (Wp p) c (Proc.devRef .tc b)) ((stageDat H Wp p c).arrAt · (cfgs p).N)
      (fun w => (Pipeline.withArrays_arr (cfgs p).spec l.win.arr_inj c (Wp p c) (fun w => (stageDat H Wp p c).arrAt w (cfgs p).N) w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (stageDat H Wp p c).owed (Fin.last (Pipeline.pin (pcfgs (F := F)) adm p).N) = 0 from (H p).owed_eq _ c _]
    icases HO with ⟨%W, -, HO⟩; iexists W; iexact HO

end Stages

/-- The four halves, and the contents each stage is entered from, by the stage's number. -/
def halves : (p : Fin 4) → Half (F := F) (cfgs p)
  | ⟨0, _⟩ => h0 | ⟨1, _⟩ => h1 | ⟨2, _⟩ => h2 | ⟨3, _⟩ => h3
def Wpre : Fin 4 → Dev nD → Valuation τ sig (Elt F)
  | ⟨0, _⟩ => W3 m | ⟨1, _⟩ => W4 h0 m | ⟨2, _⟩ => W6 h0 h1 m | ⟨3, _⟩ => W8 h0 h1 h2 m
abbrev pdats := stageDat (halves h0 h1 h2 h3) (Wpre h0 h1 h2 m)

/-- A host stretch from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev segs : List (Pipeline.Seg (pcfgs (F := F)) adm (pdats h0 h1 h2 h3 m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (stageSeg (halves h0 h1 h2 h3) (Wpre h0 h1 h2 m) 0 launch0),
    .region (stageSeg (halves h0 h1 h2 h3) (Wpre h0 h1 h2 m) 1 launch1),
    .host (hseg hostOps2 hostOps2_sub hostOps2_fresh (W5 h0 h1 m)),
    .region (stageSeg (halves h0 h1 h2 h3) (Wpre h0 h1 h2 m) 2 launch2),
    .host (hseg hostOps3 hostOps3_sub hostOps3_fresh (W7 h0 h1 h2 m)),
    .region (stageSeg (halves h0 h1 h2 h3) (Wpre h0 h1 h2 m) 3 launch3) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution from `m` terminates, the result array at what the last stage leaves, every argument as launched. -/
theorem run : θ_run defs (onTc (τ := τ) (main (F := F))) ⟨m, fun _ => 0, ρ⟩ (fun r => ∀ c : Dev nD,
      r.2.mem ((c.tc : Thread nD τ).loc main_v9) = (h3.dat (V8 h0 h1 h2 m) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats h0 h1 h2 h3 m) () cellOf_inj emb₁ defs₀ 𝒱₀ L lv m ρ main (segs h0 h1 h2 h3 m)
    (fun c Q => by rw [show main (F := F) c = Pipeline.Seg.run (segs h0 h1 h2 h3 m) from (main_chain c).trans (by chain_rfl)])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [ownU_emb₁, BI.bigSep_emp_const]
      iintro Hu; imodintro
      isplitl [Hu]; · iexact Hu
      iempintro)
    (T₀ := stateAt (W0 m)) (Tₙ := fun c => iprop(StableHlo.held (c : Thread nD τ) (Pipeline.ucRefs τ sig) (W9 h0 h1 h2 h3 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 h0 h1 h2 h3 m c b)
    (hfin := fun c s' => by
      iintro ⟨⟨Hh, -⟩, HSI⟩
      unfold StableHlo.held
      imodintro
      iapply (pointsTo_read_all (Pipeline.ucRefs τ sig) (fun b => (((c : Thread nD τ)).1, b)) (W9 h0 h1 h2 h3 m c) s')
      isplitl [Hh] <;> iassumption)
    (hQ := fun s h c =>
      have k (b : Ref sig .tc) (hb : ¬ (Proc.devRef .tc b : DevRef τ sig).isScoped ∧ _) := (h c _ (mem_uc b hb.1)).trans (W9_kept h0 h1 h2 h3 m c b hb.2)
      ⟨(h c _ (mem_uc main_v9 (by decide))).trans (Pipeline.withArrays_arr spec3 launch3.win.arr_inj c _ _ 5),
       k main_arg0 (by decide), k main_arg1 (by decide), k main_arg2 (by decide), k main_arg3 (by decide), k main_arg4 (by decide),
       k main_arg5 (by decide), k main_arg6 (by decide), k main_arg7 (by decide), k main_arg8 (by decide)⟩)

end Cert.Kernel.Hand

end
-- ==== Proof.K.Reg0.lean ====
import proofs.«423191_j44616120271607_3_alg».proof.Proof.Gen.Kernel.Launch
import proofs.«423191_j44616120271607_3_alg».proof.Proof.Gen.Kernel.Skeleton
import proofs.«423191_j44616120271607_3_alg».proof.Proof.Gen.Kernel.Points
import proofs.«423191_j44616120271607_3_alg».proof.Proof.Gen.Kernel.Loops
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 49 = 0 :=
  (by decide +kernel : ∀ t : Fin grid0.N, cond0_0 (grid0.coords t) ↔ t.val % 49 = 0)
abbrev cond0_1 (i : grid0.Coords) : Prop := k0_cond2 i = 1#1
theorem hcond0_1 : ∀ t : Fin cfg0.N, cond0_1 (grid0.coords t) ↔ t.val % 49 = 48 :=
  (by decide +kernel : ∀ t : Fin grid0.N, cond0_1 (grid0.coords t) ↔ t.val % 49 = 48)

abbrev rTab (i : grid0.Coords) : Rect S50176x128 := Rect.unit (s := S50176x128) (k0_off1 i) S1024x128.size (k0_off1_inb i)
abbrev rCol0 : Rect S2000x2 := Rect.unit (s := S2000x2) ![0, 0] S2000x1.size inb_S2000x2_S2000x1_0_0
abbrev rCol1 : Rect S2000x2 := Rect.unit (s := S2000x2) ![0, 1] S2000x1.size inb_S2000x2_S2000x1_0_1

def step0 (i : grid0.Coords) (x0 : Vec F S2000x2 .i32) (x1 : Vec F S50176x128 .bf16) (a : Vec F S2000x128 .f32) : Vec F S2000x128 .f32 :=
  k0_pay9 i (View.ld x1 (rTab i)) (View.ld x0 rCol0) a
def step1 (i : grid0.Coords) (x0 : Vec F S2000x2 .i32) (x1 : Vec F S50176x128 .bf16) (a : Vec F S2000x128 .f32) : Vec F S2000x128 .f32 :=
  k0_pay1 (k0_pay10 i (View.ld x1 (rTab i)) (View.ld x0 rCol1) a)

theorem hz2 : (![0, 0] : Fin 2 → ℕ) = fun _ => 0 := by funext a; fin_cases a <;> rfl
theorem hz1 : (![0] : Fin 1 → ℕ) = fun _ => 0 := by funext a; fin_cases a; rfl

-- One point of the body: an accumulator restarts from zero where a run of chunks begins; the two messages are stored where it ends.
def Run0 (i : grid0.Coords) : Prop :=
  ∀ (c : Dev nD) {arg2 : Memref sig .tc .vmem S2000x2 .i32} {harg2 : arg2.IsWhole} {arg3 : Memref sig .tc .vmem S50176x128 .bf16} {harg3 : arg3.IsWhole} {arg4 : Memref sig .tc .vmem S2000x128 .bf16} {harg4 : arg4.IsWhole} {arg5 : Memref sig .tc .vmem S256x128 .f32} {harg5 : arg5.IsWhole} {arg6 : Memref sig .tc .vmem S128 .f32} {harg6 : arg6.IsWhole} {arg7 : Memref sig .tc .vmem S256x128 .f32} {harg7 : arg7.IsWhole} {arg8 : Memref sig .tc .vmem S128 .f32} {harg8 : arg8.IsWhole} {arg9 : Memref sig .tc .vmem S2000x128 .bf16} {harg9 : arg9.IsWhole} {arg10 : Memref sig .tc .vmem S2000x128 .bf16} {harg10 : arg10.IsWhole} {arg11 : Memref sig .tc .vmem S2000x128 .f32} {harg11 : arg11.IsWhole} {arg12 : Memref sig .tc .vmem S2000x128 .f32} {harg12 : arg12.IsWhole}
    {x0 : Vec F S2000x2 .i32} {x1 : Vec F S50176x128 .bf16} {x2 : Vec F S2000x128 .bf16} {x3 : Vec F S256x128 .f32} {x4 : Vec F S128 .f32} {x5 : Vec F S256x128 .f32} {x6 : Vec F S128 .f32} {xi7 xi8 : Vec F S2000x128 .bf16} {xs0 xs1 : Vec F S2000x128 .f32} {E : Set ℕ} {K : PUnit → sProp 𝕄},
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (if cond0_1 i then k0_pay3 x2 (step0 i x0 x1 (if cond0_0 i then k0_pay5 else xs0)) x3 x4 else xi7)
            ∗ owns (c : Thread nD τ) arg10 fullShare (if cond0_1 i then k0_pay4 x2 (step1 i x0 x1 (if cond0_0 i then k0_pay6 else xs1)) x5 x6 else xi8)
            ∗ owns (c : Thread nD τ) arg11 fullShare (step0 i x0 x1 (if cond0_0 i then k0_pay5 else xs0)) ∗ owns (c : Thread nD τ) arg12 fullShare (step1 i x0 x1 (if cond0_0 i then k0_pay6 else xs1))) -∗ K ⟨⟩))
      ⊢ wp frame (wpE (defs₀ (F := F)) Variants.none c none) E (cc0__gather_linear_kernel i arg2 harg2 arg3 harg3 arg4 harg4 arg5 harg5 arg6 harg6 arg7 harg7 arg8 harg8 arg9 harg9 arg10 harg10 arg11 harg11 arg12 harg12) K

set_option maxHeartbeats 2000000 in
theorem run0_A (i : grid0.Coords) (hc0 : cond0_0 i) (hc1 : ¬cond0_1 i) : Run0 (F := F) i := by
  intro c arg2 harg2 arg3 harg3 arg4 harg4 arg5 harg5 arg6 harg6 arg7 harg7 arg8 harg8 arg9 harg9 arg10 harg10 arg11 harg11 arg12 harg12 x0 x1 x2 x3 x4 x5 x6 xi7 xi8 xs0 xs1 E K
  rw [if_pos hc0, if_pos hc0, if_neg hc1, if_neg hc1]
  simp only [cc0__gather_linear_kernel_eq_skeleton]; unfold cc0__gather_linear_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
  sl_exec (disch := first | exact hc0 | exact hc1)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [HS0]; iexists _; isplitr; swap; iexact HS0; rotate_left
  iexists _; isplitr; swap; iexact HS1
  all_goals
    ipureintro
    first
    | with_reducible exact Memref.IsWhole.read_unread _ _
    | sl_unfold_words
      rw [View.read_writes_eq_canon _ _ _ (fun y => ⟨_, List.mem_cons_self, View.mem_set_unit_zero hz2 inb_S2000x128_S2000x128_0_0 y⟩)]
      first | rw [View.canon_unit_zero (S := S2000x128) hz2] | rw [View.canon_cons_unit_zero (S := S2000x128) hz2]
      first | unfold step0 | unfold step1
      simp only [View.readAt_eq_ld, harg2.read_unread, harg3.read_unread, harg4.read_unread, harg5.read_unread, harg6.read_unread, harg7.read_unread, harg8.read_unread, harg11.read_unread, harg12.read_unread, View.ld_unit_zero (S := S2000x128) hz2, View.ld_unit_zero (S := S256x128) hz2, View.ld_unit_zero (S := S128) hz1, View.readCov_unit_zero (S := S2000x128) _ hz2]
      rfl

set_option maxHeartbeats 2000000 in
theorem run0_B (i : grid0.Coords) (hc0 : ¬cond0_0 i) (hc1 : ¬cond0_1 i) : Run0 (F := F) i := by
  intro c arg2 harg2 arg3 harg3 arg4 harg4 arg5 harg5 arg6 harg6 arg7 harg7 arg8 harg8 arg9 harg9 arg10 harg10 arg11 harg11 arg12 harg12 x0 x1 x2 x3 x4 x5 x6 xi7 xi8 xs0 xs1 E K
  rw [if_neg hc0, if_neg hc0, if_neg hc1, if_neg hc1]
  simp only [cc0__gather_linear_kernel_eq_skeleton]; unfold cc0__gather_linear_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
  sl_exec (disch := first | exact hc0 | exact hc1)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [HS0]; iexists _; isplitr; swap; iexact HS0; rotate_left
  iexists _; isplitr; swap; iexact HS1
  all_goals
    ipureintro
    first
    | with_reducible exact Memref.IsWhole.read_unread _ _
    | sl_unfold_words
      rw [View.read_writes_eq_canon _ _ _ (fun y => ⟨_, List.mem_cons_self, View.mem_set_unit_zero hz2 inb_S2000x128_S2000x128_0_0 y⟩)]
      first | rw [View.canon_unit_zero (S := S2000x128) hz2] | rw [View.canon_cons_unit_zero (S := S2000x128) hz2]
      first | unfold step0 | unfold step1
      simp only [View.readAt_eq_ld, harg2.read_unread, harg3.read_unread, harg4.read_unread, harg5.read_unread, harg6.read_unread, harg7.read_unread, harg8.read_unread, harg11.read_unread, harg12.read_unread, View.ld_unit_zero (S := S2000x128) hz2, View.ld_unit_zero (S := S256x128) hz2, View.ld_unit_zero (S := S128) hz1, View.readCov_unit_zero (S := S2000x128) _ hz2]
      rfl

set_option maxHeartbeats 2000000 in
theorem run0_C (i : grid0.Coords) (hc0 : ¬cond0_0 i) (hc1 : cond0_1 i) : Run0 (F := F) i := by
  intro c arg2 harg2 arg3 harg3 arg4 harg4 arg5 harg5 arg6 harg6 arg7 harg7 arg8 harg8 arg9 harg9 arg10 harg10 arg11 harg11 arg12 harg12 x0 x1 x2 x3 x4 x5 x6 xi7 xi8 xs0 xs1 E K
  rw [if_neg hc0, if_neg hc0, if_pos hc1, if_pos hc1]
  simp only [cc0__gather_linear_kernel_eq_skeleton]; unfold cc0__gather_linear_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
  sl_exec (disch := first | exact hc0 | exact hc1)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [HS0]; iexists _; isplitr; swap; iexact HS0; rotate_left
  iexists _; isplitr; swap; iexact HS1
  all_goals
    ipureintro
    first
    | with_reducible exact Memref.IsWhole.read_unread _ _
    | sl_unfold_words
      rw [View.read_writes_eq_canon _ _ _ (fun y => ⟨_, List.mem_cons_self, View.mem_set_unit_zero hz2 inb_S2000x128_S2000x128_0_0 y⟩)]
      first | rw [View.canon_unit_zero (S := S2000x128) hz2] | rw [View.canon_cons_unit_zero (S := S2000x128) hz2]
      first | unfold step0 | unfold step1
      simp only [View.readAt_eq_ld, harg2.read_unread, harg3.read_unread, harg4.read_unread, harg5.read_unread, harg6.read_unread, harg7.read_unread, harg8.read_unread, harg11.read_unread, harg12.read_unread, View.ld_unit_zero (S := S2000x128) hz2, View.ld_unit_zero (S := S256x128) hz2, View.ld_unit_zero (S := S128) hz1, View.readCov_unit_zero (S := S2000x128) _ hz2]
      rfl

theorem run0 (i : grid0.Coords) (hc : ¬(cond0_0 i ∧ cond0_1 i)) : Run0 (F := F) i := by
  by_cases hc0 : cond0_0 i <;> by_cases hc1 : cond0_1 i
  exacts [absurd ⟨hc0, hc1⟩ hc, run0_A i hc0 hc1, run0_C i hc0 hc1, run0_B i hc0 hc1]

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev blk0 (c : Dev nD) (t : Fin cfg0.N) : Vec F S2000x2 .i32 := iblk0 V c 0 t
abbrev blk1 (c : Dev nD) (t : Fin cfg0.N) : Vec F S50176x128 .bf16 := iblk0 V c 1 t
abbrev blk2 (c : Dev nD) (t : Fin cfg0.N) : Vec F S2000x128 .bf16 := iblk0 V c 2 t
abbrev blk3 (c : Dev nD) (t : Fin cfg0.N) : Vec F S256x128 .f32 := iblk0 V c 3 t
abbrev blk4 (c : Dev nD) (t : Fin cfg0.N) : Vec F S128 .f32 := iblk0 V c 4 t
abbrev blk5 (c : Dev nD) (t : Fin cfg0.N) : Vec F S256x128 .f32 := iblk0 V c 5 t
abbrev blk6 (c : Dev nD) (t : Fin cfg0.N) : Vec F S128 .f32 := iblk0 V c 6 t

def acc0 (c : Dev nD) : (n : ℕ) → n < cfg0.N → Vec F S2000x128 .f32
  | 0, hn => step0 (grid0.coords ⟨0, hn⟩) (blk0 V c ⟨0, hn⟩) (blk1 V c ⟨0, hn⟩) k0_pay5
  | n + 1, hn =>
    if (n + 1) % 49 = 0 then step0 (grid0.coords ⟨n + 1, hn⟩) (blk0 V c ⟨n + 1, hn⟩) (blk1 V c ⟨n + 1, hn⟩) k0_pay5
    else step0 (grid0.coords ⟨n + 1, hn⟩) (blk0 V c ⟨n + 1, hn⟩) (blk1 V c ⟨n + 1, hn⟩) (acc0 c n (Nat.lt_of_succ_lt hn))

def acc1 (c : Dev nD) : (n : ℕ) → n < cfg0.N → Vec F S2000x128 .f32
  | 0, hn => step1 (grid0.coords ⟨0, hn⟩) (blk0 V c ⟨0, hn⟩) (blk1 V c ⟨0, hn⟩) k0_pay6
  | n + 1, hn =>
    if (n + 1) % 49 = 0 then step1 (grid0.coords ⟨n + 1, hn⟩) (blk0 V c ⟨n + 1, hn⟩) (blk1 V c ⟨n + 1, hn⟩) k0_pay6
    else step1 (grid0.coords ⟨n + 1, hn⟩) (blk0 V c ⟨n + 1, hn⟩) (blk1 V c ⟨n + 1, hn⟩) (acc1 c n (Nat.lt_of_succ_lt hn))

theorem acc0_first (c : Dev nD) (t : Fin cfg0.N) (h0 : t.val % 49 = 0) :
    acc0 V c t.val t.isLt = step0 (grid0.coords t) (blk0 V c t) (blk1 V c t) k0_pay5 := by
  obtain ⟨_ | n, hn⟩ := t
  exacts [rfl, if_pos h0]

theorem acc0_next (c : Dev nD) (t : Fin cfg0.N) (h0 : ¬t.val % 49 = 0) :
    acc0 V c t.val t.isLt = step0 (grid0.coords t) (blk0 V c t) (blk1 V c t) (acc0 V c (t.val - 1) (Nat.lt_of_le_of_lt (Nat.sub_le _ _) t.isLt)) := by
  obtain ⟨_ | n, hn⟩ := t
  exacts [absurd (Nat.zero_mod _) h0, if_neg h0]

theorem acc1_first (c : Dev nD) (t : Fin cfg0.N) (h0 : t.val % 49 = 0) :
    acc1 V c t.val t.isLt = step1 (grid0.coords t) (blk0 V c t) (blk1 V c t) k0_pay6 := by
  obtain ⟨_ | n, hn⟩ := t
  exacts [rfl, if_pos h0]

theorem acc1_next (c : Dev nD) (t : Fin cfg0.N) (h0 : ¬t.val % 49 = 0) :
    acc1 V c t.val t.isLt = step1 (grid0.coords t) (blk0 V c t) (blk1 V c t) (acc1 V c (t.val - 1) (Nat.lt_of_le_of_lt (Nat.sub_le _ _) t.isLt)) := by
  obtain ⟨_ | n, hn⟩ := t
  exacts [absurd (Nat.zero_mod _) h0, if_neg h0]

def out7 (c : Dev nD) (t : Fin cfg0.N) : Vec F S2000x128 .bf16 :=
  k0_pay3 (blk2 V c t) (acc0 V c t.val t.isLt) (blk3 V c t) (blk4 V c t)
def out8 (c : Dev nD) (t : Fin cfg0.N) : Vec F S2000x128 .bf16 :=
  k0_pay4 (blk2 V c t) (acc1 V c t.val t.isLt) (blk5 V c t) (blk6 V c t)

abbrev scM0 : Memref sig .tc .vmem S2000x128 .f32 := Memref.whole cc0_scratch0
abbrev scM1 : Memref sig .tc .vmem S2000x128 .f32 := Memref.whole cc0_scratch1

abbrev restS (c : Dev nD) : sProp 𝕄 :=
  Pipeline.scopedRestBut (Ix := Unit) (Name := ℕ) (U := UR sig nD τ) (Lvl := ℕ) (Val := Elt F) spec0 c [cc0_scratch0, cc0_scratch1]

-- The launch's invariant with the two accumulators named apart from the rest.
theorem PhiA0_eq (c : Dev nD) :
    (Pipeline.ΦA spec0 c : sProp 𝕄)
      = iprop(iprop(iprop((∃ d, owns (c : Thread nD τ) scM0 fullShare d) ∗ (∃ d, owns (c : Thread nD τ) scM1 fullShare d)) ∗ restS (F := F) c) ∗ (∃ r, prngReg c r)) := by
  unfold Pipeline.ΦA; rw [scopedRest0_split]; simp only [scM0, scM1, owns_whole]; try rfl

def PhiS (c : Dev nD) : (n : ℕ) → n ≤ cfg0.N → sProp 𝕄
  | 0, _ => Pipeline.ΦA spec0 c
  | n + 1, hn => iprop(iprop(iprop(owns (c : Thread nD τ) scM0 fullShare (acc0 V c n hn) ∗ owns (c : Thread nD τ) scM1 fullShare (acc1 V c n hn)) ∗ restS (F := F) c) ∗ (∃ r, prngReg c r))

theorem PhiS_succ (c : Dev nD) (n : ℕ) (hn : n < cfg0.N) :
    PhiS V c (n + 1) hn = iprop(iprop(iprop(owns (c : Thread nD τ) scM0 fullShare (acc0 V c n hn) ∗ owns (c : Thread nD τ) scM1 fullShare (acc1 V c n hn)) ∗ restS (F := F) c) ∗ (∃ r, prngReg c r)) := rfl

theorem PhiS_pos (c : Dev nD) (n : ℕ) (h : n ≤ cfg0.N) (hz : n ≠ 0) :
    PhiS V c n h = iprop(iprop(iprop(owns (c : Thread nD τ) scM0 fullShare (acc0 V c (n - 1) (by omega)) ∗ owns (c : Thread nD τ) scM1 fullShare (acc1 V c (n - 1) (by omega))) ∗ restS (F := F) c) ∗ (∃ r, prngReg c r)) := by
  obtain _ | n := n
  exacts [absurd rfl hz, rfl]

-- At any position the accumulators' contents can be forgotten.
theorem Phi_out0 (c : Dev nD) (n : ℕ) (h : n ≤ cfg0.N) : PhiS V c n h ⊢ Pipeline.ΦA spec0 c := by
  by_cases hz : n = 0
  · subst hz; rw [show PhiS V c 0 h = Pipeline.ΦA spec0 c from rfl]
  rw [PhiS_pos V c _ _ hz, PhiA0_eq]
  iintro ⟨⟨⟨HS0, HS1⟩, HR⟩, Hg⟩
  iframe HR Hg
  isplitl [HS0]; · iexists _; iexact HS0
  iexists _; iexact HS1

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out7 V c t
    | ⟨8, _⟩ => out8 V c t
  Φ t := PhiS V c t.val (Nat.le_of_lt_succ t.isLt)
  q _ := fullShare
  owed _ := 0

theorem A_eq0 (c : Dev nD) (w : Fin cfg0.W) : (dat0 V c).A w = V c (Pipeline.arrRef spec0 w) := rfl
theorem after0_7 (c : Dev nD) (t : Fin cfg0.N) : (dat0 V c).after 7 t = out7 V c t := rfl
theorem after0_8 (c : Dev nD) (t : Fin cfg0.N) : (dat0 V c).after 8 t = out8 V c t := rfl

-- What the body finds in an input window is the window's block of the array.
theorem before0 (c : Dev nD) (t : Fin cfg0.N) :
    (∀ d, (dat0 V c).before 0 t d = blk0 V c t) ∧ (∀ d, (dat0 V c).before 1 t d = blk1 V c t) ∧ (∀ d, (dat0 V c).before 2 t d = blk2 V c t)
      ∧ (∀ d, (dat0 V c).before 3 t d = blk3 V c t) ∧ (∀ d, (dat0 V c).before 4 t d = blk4 V c t) ∧ (∀ d, (dat0 V c).before 5 t d = blk5 V c t)
      ∧ (∀ d, (dat0 V c).before 6 t d = blk6 V c t) := by
  refine ⟨?_, ?_, ?_, ?_, ?_, ?_, ?_⟩ <;>
    exact fun d => ((dat0 V c).before_in_eq_fetched _ rfl (fun _ => rfl) (fun _ _ _ => rfl) (fun _ => rfl) t d).trans rfl

-- Off the last point of a run the body leaves the two output windows as it found them.
theorem leavesIdle0 (c : Dev nD) (t : Fin cfg0.N) (h1 : ¬t.val % 49 = 48) :
    (dat0 V c).leavesExact 7 t = iprop(∃ d, owns (c : Thread nD τ) (st0_7 t) fullShare ((dat0 V c).before 7 t d))
      ∧ (dat0 V c).leavesExact 8 t = iprop(∃ d, owns (c : Thread nD τ) (st0_8 t) fullShare ((dat0 V c).before 8 t d)) := by
  have hi : (!(k0_cond2 (grid0.coords t) == 1#1)) = true := by
    simp only [Bool.not_eq_true', beq_eq_false_iff_ne, ne_eq]; exact fun h => h1 ((hcond0_1 t).mp h)
  exact ⟨Dat.leavesExact_idle (dat0 V c) 7 t hi (Bool.eq_false_iff.mpr fun hf => h1 ((flush0_7 t).mp hf)),
    Dat.leavesExact_idle (dat0 V c) 8 t hi (Bool.eq_false_iff.mpr fun hf => h1 ((flush0_8 t).mp hf))⟩

-- At the last point of a run the two output windows hold the point's messages.
theorem leavesLive0 (c : Dev nD) (t : Fin cfg0.N) (h1 : t.val % 49 = 48) :
    (dat0 V c).leavesExact 7 t = owns (c : Thread nD τ) (st0_7 t) fullShare ((dat0 V c).after 7 t) ∧ (dat0 V c).leavesExact 8 t = owns (c : Thread nD τ) (st0_8 t) fullShare ((dat0 V c).after 8 t) := by
  have hl : (!(k0_cond2 (grid0.coords t) == 1#1)) = false := by rw [show k0_cond2 (grid0.coords t) = 1#1 from (hcond0_1 t).mpr h1]; rfl
  exact ⟨by unfold Dat.leavesExact; rw [show cfg0.idle 7 (grid0.coords t) = false from hl], by unfold Dat.leavesExact; rw [show cfg0.idle 8 (grid0.coords t) = false from hl]⟩

set_option maxHeartbeats 4800000 in
-- The body at any point: its place in its run of 49 says which accumulators it starts from and whether it stores the messages.
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d))
      ∗ (∃ d, owns (c : Thread nD τ) (st0_3 t) fullShare ((dat0 V c).before 3 t d)) ∗ (∃ d, owns (c : Thread nD τ) (st0_4 t) fullShare ((dat0 V c).before 4 t d)) ∗ (∃ d, owns (c : Thread nD τ) (st0_5 t) fullShare ((dat0 V c).before 5 t d))
      ∗ (∃ d, owns (c : Thread nD τ) (st0_6 t) fullShare ((dat0 V c).before 6 t d)) ∗ (∃ d, owns (c : Thread nD τ) (st0_7 t) fullShare ((dat0 V c).before 7 t d)) ∗ (∃ d, owns (c : Thread nD τ) (st0_8 t) fullShare ((dat0 V c).before 8 t d)))
    ⊢ wp frame (wpE (defs₀ (F := F)) Variants.none c none) Set.univ (bodyAt0 t) (fun _ => iprop((dat0 V c).Φ t.succ ∗ (dat0 V c).owesAt () t.castSucc
      ∗ owns (c : Thread nD τ) (st0_0 t) fullShare (blk0 V c t) ∗ owns (c : Thread nD τ) (st0_1 t) fullShare (blk1 V c t) ∗ owns (c : Thread nD τ) (st0_2 t) fullShare (blk2 V c t) ∗ owns (c : Thread nD τ) (st0_3 t) fullShare (blk3 V c t)
      ∗ owns (c : Thread nD τ) (st0_4 t) fullShare (blk4 V c t) ∗ owns (c : Thread nD τ) (st0_5 t) fullShare (blk5 V c t) ∗ owns (c : Thread nD τ) (st0_6 t) fullShare (blk6 V c t)
      ∗ (dat0 V c).leavesExact 7 t ∗ (dat0 V c).leavesExact 8 t)) := by
  unfold bodyAt0
  obtain ⟨b0, b1, b2, b3, b4, b5, b6⟩ := before0 V c t
  simp only [b0, b1, b2, b3, b4, b5, b6]
  rw [show (dat0 V c).Φ t.succ = PhiS V c (t.val + 1) t.isLt from rfl, PhiS_succ, show (dat0 V c).Φ t.castSucc = PhiS V c t.val (Nat.le_of_lt t.isLt) from rfl]
  have hc : ¬(cond0_0 (grid0.coords t) ∧ cond0_1 (grid0.coords t)) := fun h => by
    have := (hcond0_0 t).mp h.1; have := (hcond0_1 t).mp h.2; omega
  by_cases h0 : t.val % 49 = 0
  · have h1 : ¬t.val % 49 = 48 := by omega
    rw [(leavesIdle0 V c t h1).1, (leavesIdle0 V c t h1).2, acc0_first V c t h0, acc1_first V c t h0]
    refine (sep_mono_left (Phi_out0 V c _ _)).trans ?_
    rw [PhiA0_eq]
    iintro ⟨⟨⟨⟨⟨%e0, HS0⟩, ⟨%e1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0 (grid0.coords t) hc c)
    iframe H0 H1 H2 H3 H4 H5 H6 H7 H8 HS0 HS1
    iintro ⟨H0, H1, H2, H3, H4, H5, H6, H7, H8, HS0, HS1⟩
    simp only [if_pos ((hcond0_0 t).mpr h0), if_neg fun h => h1 ((hcond0_1 t).mp h)]
    iframe HS0 HS1 HR Hg Ho H0 H1 H2 H3 H4 H5 H6
    isplitl [H7]; · iexists _; iexact H7
    iexists _; iexact H8
  have hc0 : ¬cond0_0 (grid0.coords t) := fun h => h0 ((hcond0_0 t).mp h)
  rw [acc0_next V c t h0, acc1_next V c t h0, PhiS_pos V c _ _ fun h => h0 (by rw [h])]
  by_cases h1 : t.val % 49 = 48
  · rw [(leavesLive0 V c t h1).1, (leavesLive0 V c t h1).2, after0_7, after0_8]
    unfold out7 out8
    rw [acc0_next V c t h0, acc1_next V c t h0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0 (grid0.coords t) hc c)
    iframe H0 H1 H2 H3 H4 H5 H6 H7 H8 HS0 HS1
    iintro ⟨H0, H1, H2, H3, H4, H5, H6, H7, H8, HS0, HS1⟩
    simp only [if_neg hc0, if_pos ((hcond0_1 t).mpr h1)]
    iframe HS0 HS1 HR Hg Ho H0 H1 H2 H3 H4 H5 H6 H7 H8
  · rw [(leavesIdle0 V c t h1).1, (leavesIdle0 V c t h1).2]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0 (grid0.coords t) hc c)
    iframe H0 H1 H2 H3 H4 H5 H6 H7 H8 HS0 HS1
    iintro ⟨H0, H1, H2, H3, H4, H5, H6, H7, H8, HS0, HS1⟩
    simp only [if_neg hc0, if_neg fun h => h1 ((hcond0_1 t).mp h)]
    iframe HS0 HS1 HR Hg Ho H0 H1 H2 H3 H4 H5 H6
    isplitl [H7]; · iexists _; iexact H7
    iexists _; iexact H8

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Pipeline.ΦA spec0 c from rfl]

theorem hout0 (c : Dev nD) : (dat0 V c).Φ (Fin.last cfg0.N) ⊢ Pipeline.ΦA spec0 c :=
  Phi_out0 V c (Fin.last cfg0.N).val (Nat.le_of_lt_succ (Fin.last cfg0.N).isLt)

end Region

end Cert.Kernel.Hand
end
-- ==== Proof.K.Reg1.lean ====
import proofs.«423191_j44616120271607_3_alg».proof.Proof.Gen.Kernel.Launch
import proofs.«423191_j44616120271607_3_alg».proof.Proof.Gen.Kernel.Skeleton
import proofs.«423191_j44616120271607_3_alg».proof.Proof.Gen.Kernel.Points
import proofs.«423191_j44616120271607_3_alg».proof.Proof.Gen.Kernel.Loops
import Idealize.ShloMosaic.Lib.Pipeline.FrameBody
import Idealize.ShloMosaic.Lib.Pipeline.Regions
import Idealize.ShloMosaic.Lib.Pipeline.Value
import Idealize.ShloMosaic.Lib.Pipeline.TableIdle
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2_k1 : (![0, 0] : Fin 2 → ℕ) = fun _ => 0 := funext fun a => by fin_cases a <;> rfl

private theorem owns_eq_unread {sp : Space} {sh : Shape} {e : EltTy} {m : Memref sig .tc sp sh e} (h : m.IsWhole) (c : Dev nD) (X : sh.Idx → Elt F e) :
    (owns (c : Thread nD τ) m fullShare X : sProp 𝕄) = (m.view.loc (c : Thread nD τ) ↦[m.view.set]{fullShare} h.unread X) := by
  rw [owns_eq_rep, h.eq_unread (View.read_rep _ _)]

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 250 = 0 :=
  (by decide +kernel : ∀ t : Fin grid1.N, cond1_0 (grid1.coords t) ↔ t.val % 250 = 0)
abbrev cond1_1 (i : grid1.Coords) : Prop := k1_cond2 i = 1#1
theorem hcond1_1 : ∀ t : Fin cfg1.N, cond1_1 (grid1.coords t) ↔ t.val % 250 = 249 :=
  (by decide +kernel : ∀ t : Fin grid1.N, cond1_1 (grid1.coords t) ↔ t.val % 250 = 249)

theorem offAt1_3 : ∀ t : Fin cfg1.N, ¬cond1_1 (grid1.coords t) → cfg1.idle 3 (grid1.coords t) = true ∧ (cfg1.win 3).flush t = false := by decide +kernel
theorem liveAt1_3 : ∀ t : Fin cfg1.N, cond1_1 (grid1.coords t) → cfg1.idle 3 (grid1.coords t) = false := by decide +kernel

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S2000x2 .i32 := win1_0.stage (cfg1.slots t 0)
abbrev ms1_1 (t : Fin cfg1.N) : Memref sig .tc .vmem S2000x128 .bf16 := win1_1.stage (cfg1.slots t 1)
abbrev ms1_2 (t : Fin cfg1.N) : Memref sig .tc .vmem S2000x128 .bf16 := win1_2.stage (cfg1.slots t 2)
abbrev ms1_3 (t : Fin cfg1.N) : Memref sig .tc .vmem S12800x128 .f32 := win1_3.stage (cfg1.slots t 3)
abbrev scM1_k1 : Memref sig .tc .vmem S12800x128 .f32 := Memref.whole cc1_scratch0

abbrev rW1 : Rect S12800x128 := Rect.unit (s := S12800x128) ![0, 0] S12800x128.size inb_S12800x128_S12800x128_0_0

theorem coverW1 (w : Vec F S12800x128 .f32) (y : S12800x128.Idx) :
    ∃ p ∈ ([⟨rW1, w⟩] : List (View.Piece (Elt F) S12800x128 .f32)), y ∈ p.1.set :=
  View.cover_of_tiled [⟨rW1, w⟩] S12800x128.size (by rfl) y

abbrev rest1 (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

theorem PhiA1_eq (c : Dev nD) :
    (Pipeline.ΦA spec1 c : sProp 𝕄) = rest1 c iprop(∃ d, owns (c : Thread nD τ) scM1_k1 fullShare d) := by
  unfold Pipeline.ΦA; rw [scopedRest1_split]; simp only [scM1_k1, owns_whole]; try rfl

section run

variable (c : Dev nD) (i : grid1.Coords) (arg2 : Memref sig .tc .vmem S2000x2 .i32) (harg2 : arg2.IsWhole) (arg3 : Memref sig .tc .vmem S2000x128 .bf16) (harg3 : arg3.IsWhole) (arg4 : Memref sig .tc .vmem S2000x128 .bf16) (harg4 : arg4.IsWhole) (arg5 : Memref sig .tc .vmem S12800x128 .f32) (harg5 : arg5.IsWhole) (arg6 : Memref sig .tc .vmem S12800x128 .f32) (harg6 : arg6.IsWhole)
  (x0 : Vec F S2000x2 .i32) (x1 : Vec F S2000x128 .bf16) (x2 : Vec F S2000x128 .bf16)

def slabs1 (G : BufTy.Contents (Elt F) arg6.view.ty) : List (View.Piece (Elt F) S12800x128 .f32) :=
  pb_k1_t1 Variants.none c none i arg2 harg2 arg3 harg3 arg4 harg4 arg5 harg5 arg6 harg6
    (View.readAt (Elt F) arg2.view (Rect.unit (s := S2000x2) ![0, 0] S2000x1.size inb_S2000x2_S2000x1_0_0).toLoadRect (harg2.unread x0))
    (View.readAt (Elt F) arg2.view (Rect.unit (s := S2000x2) ![0, 1] S2000x1.size inb_S2000x2_S2000x1_0_1).toLoadRect (harg2.unread x0))
    (View.readAt (Elt F) arg3.view (Rect.unit (s := S2000x128) ![0, 0] S2000x128.size inb_S2000x128_S2000x128_0_0).toLoadRect (harg3.unread x1))
    (View.readAt (Elt F) arg4.view (Rect.unit (s := S2000x128) ![0, 0] S2000x128.size inb_S2000x128_S2000x128_0_0).toLoadRect (harg4.unread x2))
    G (Scf.trips k1_t1_loop.lb k1_t1_loop.ub k1_t1_loop.st)

def loopOut1 (xs : Vec F S12800x128 .f32) : Vec F S12800x128 .f32 :=
  arg6.view.read (Elt F) (arg6.view.writes (Elt F) (harg6.unread xs) (slabs1 c i arg2 harg2 arg3 harg3 arg4 harg4 arg5 harg5 arg6 harg6 x0 x1 x2 (harg6.unread xs)))

-- One point: zeros first at the start of a run, then the loop; at the end of a run the result is also copied to the output block.
theorem kernelRun1 (h : cond1_0 i → ¬cond1_1 i) (d5 xs0 : Vec F S12800x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d5 ∗ owns (c : Thread nD τ) arg6 fullShare xs0
        ∗ (iprop(owns (c : Thread nD τ) arg2 fullShare x0 ∗ owns (c : Thread nD τ) arg3 fullShare x1 ∗ owns (c : Thread nD τ) arg4 fullShare x2
            ∗ owns (c : Thread nD τ) arg5 fullShare (if cond1_1 i then loopOut1 c i arg2 harg2 arg3 harg3 arg4 harg4 arg5 harg5 arg6 harg6 x0 x1 x2 (if cond1_0 i then k1_pay1 (F := F) else xs0) else d5)
            ∗ owns (c : Thread nD τ) arg6 fullShare (loopOut1 c i arg2 harg2 arg3 harg3 arg4 harg4 arg5 harg5 arg6 harg6 x0 x1 x2 (if cond1_0 i then k1_pay1 (F := F) else xs0))) -∗ K ⟨⟩))
      ⊢ wp frame (wpE (defs₀ (F := F)) Variants.none c none) E (cc1__scatter_kernel i arg2 harg2 arg3 harg3 arg4 harg4 arg5 harg5 arg6 harg6) K := by
  simp only [cc1__scatter_kernel_eq_skeleton, owns_eq_unread harg2, owns_eq_unread harg3, owns_eq_unread harg4]; unfold cc1__scatter_kernel_skel owns
  iintro ⟨H0, H1, H2, ⟨%f3, %hf3, H3⟩, ⟨%fs0, %hfs0, HS0⟩, Hk⟩
  obtain rfl := harg6.eq_unread hfs0
  by_cases hc1 : cond1_1 i
  · have hc0 : ¬cond1_0 i := fun h0 => h h0 hc1
    rw [if_neg hc0, if_pos hc1]
    sl_exec (disch := first | exact hc0 | exact hc1)
    sl_step
    iapply Hk
    iframe H0 H1 H2
    isplitl [H3]
    · iexists _; isplitr
      swap; · iexact H3
      ipureintro
      rw [View.read_writes_eq_canon _ _ _ (coverW1 _), View.canon_unit_zero (S := S12800x128) hz2_k1]
      sl_unfold_run_names
      rw [View.readAt_eq_ld, View.ld_unit_zero (S := S12800x128) hz2_k1]
      rfl
    iexists _; isplitr
    swap; · iexact HS0
    ipureintro; rfl
  rw [if_neg hc1]
  by_cases hc0 : cond1_0 i <;> (first | rw [if_pos hc0] | rw [if_neg hc0])
  all_goals
    sl_exec (disch := first | exact hc0 | exact hc1)
    sl_step
    iapply Hk
    iframe H0 H1 H2
    isplitl [H3]
    · iexists _; isplitr; · ipureintro; exact hf3
      iexact H3
    iexists _; isplitr
    swap; · iexact HS0
    ipureintro
  · sl_unfold_run_names
    have hG : arg6.view.writes (Elt F) arg6.view.junk [⟨rW1, k1_pay1 (F := F)⟩] = harg6.unread (k1_pay1 (F := F)) :=
      harg6.eq_unread (by rw [View.read_writes_eq_canon _ _ _ (coverW1 _), View.canon_unit_zero (S := S12800x128) hz2_k1])
    rw [View.writes_append]
    unfold loopOut1 slabs1
    rw [hG]
  · rfl

end run

def stepAt1 (c : Dev nD) (t : Fin cfg1.N) (xs : Vec F S12800x128 .f32) : Vec F S12800x128 .f32 :=
  loopOut1 c (grid1.coords t) (ms1_0 t) (hstage1_0 ((cfg1.slots t 0).cast nbuf1_0)) (ms1_1 t) (hstage1_1 ((cfg1.slots t 1).cast nbuf1_1)) (ms1_2 t) (hstage1_2 ((cfg1.slots t 2).cast nbuf1_2)) (ms1_3 t) (hstage1_3 ((cfg1.slots t 3).cast nbuf1_3)) scM1_k1 (Memref.isWhole_whole _) (iblk1 V c 0 t) (iblk1 V c 1 t) (iblk1 V c 2 t) xs

-- The accumulator after point n: a run of 250 points starts from zeros, every other point from its predecessor.
def sAt1 (c : Dev nD) : (n : ℕ) → n < cfg1.N → Vec F S12800x128 .f32
  | 0, hn => stepAt1 V c ⟨0, hn⟩ (k1_pay1 (F := F))
  | n + 1, hn => stepAt1 V c ⟨n + 1, hn⟩ (if (n + 1) % 250 = 0 then k1_pay1 (F := F) else sAt1 c n (Nat.lt_of_succ_lt hn))

theorem sAt1_A (c : Dev nD) (t : Fin cfg1.N) (h0 : t.val % 250 = 0) :
    sAt1 V c t.val t.isLt = stepAt1 V c t (k1_pay1 (F := F)) := by
  obtain ⟨n, hn⟩ := t
  cases n with
  | zero => rfl
  | succ n => rw [sAt1]; rw [if_pos h0]

theorem sAt1_B (c : Dev nD) (t : Fin cfg1.N) (h0 : ¬t.val % 250 = 0) :
    sAt1 V c t.val t.isLt = stepAt1 V c t (sAt1 V c (t.val - 1) (Nat.lt_of_le_of_lt (Nat.sub_le _ _) t.isLt)) := by
  obtain ⟨n, hn⟩ := t
  cases n with
  | zero => exact absurd (Nat.zero_mod _) h0
  | succ n => rw [sAt1]; rw [if_neg h0]; rfl

def PhiS1 (c : Dev nD) : (n : ℕ) → n ≤ cfg1.N → sProp 𝕄
  | 0, _ => Pipeline.ΦA spec1 c
  | n + 1, hn => rest1 c (owns (c : Thread nD τ) scM1_k1 fullShare (sAt1 V c n hn))

theorem PhiS1_pos (c : Dev nD) (n : ℕ) (h : n ≤ cfg1.N) (hz : n ≠ 0) :
    PhiS1 V c n h = rest1 c (owns (c : Thread nD τ) scM1_k1 fullShare (sAt1 V c (n - 1) (by omega))) := by
  cases n with
  | zero => exact absurd rfl hz
  | succ n => rfl

-- At every position the invariant holds the accumulator at some contents.
theorem PhiS1_any (c : Dev nD) (n : ℕ) (h : n ≤ cfg1.N) :
    PhiS1 V c n h ⊢ rest1 c iprop(∃ d, owns (c : Thread nD τ) scM1_k1 fullShare d) := by
  cases n with
  | zero => exact Entails.of_eq (PhiA1_eq c)
  | succ n =>
    show rest1 c _ ⊢ _
    unfold rest1
    iintro ⟨⟨HS, HR⟩, Hg⟩
    iframe HR Hg
    iexists _; iexact HS

-- Before point t the accumulator holds some xs0 from which the point's result is one step, zeros replacing xs0 at the start of a run.
theorem PhiS1_open (c : Dev nD) (t : Fin cfg1.N) :
    PhiS1 V c t.val (Nat.le_of_lt t.isLt) ⊢ iprop(∃ xs0, ⌜sAt1 V c t.val t.isLt = stepAt1 V c t (if cond1_0 (grid1.coords t) then k1_pay1 (F := F) else xs0)⌝ ∗ rest1 c (owns (c : Thread nD τ) scM1_k1 fullShare xs0)) := by
  by_cases h0 : t.val % 250 = 0
  · refine (PhiS1_any V c _ _).trans ?_
    unfold rest1
    iintro ⟨⟨⟨%d, HS⟩, HR⟩, Hg⟩
    iexists d; isplitr
    · ipureintro; rw [if_pos ((hcond1_0 t).mpr h0)]; exact sAt1_A V c t h0
    iframe
  · rw [PhiS1_pos V c _ _ (fun hz => h0 (by rw [hz]))]
    iintro H
    iexists _; isplitr
    · ipureintro; rw [if_neg (fun h => h0 ((hcond1_0 t).mp h))]; exact sAt1_B V c t h0
    iexact H

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => sAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = sAt1 V c t.val t.isLt := by dsimp only [dat1]

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) := by
  refine ⟨fun d => ?_, fun d => ?_, fun d => ?_⟩ <;>
    exact ((dat1 V c).before_in_eq_fetched _ rfl (fun _ => rfl) (fun _ _ _ => rfl) (fun _ => rfl) t d).trans rfl

theorem leaves1 (c : Dev nD) (t : Fin cfg1.N) :
    (dat1 V c).leavesExact 0 t = owns (c : Thread nD τ) (ms1_0 t) fullShare (iblk1 V c 0 t)
      ∧ (dat1 V c).leavesExact 1 t = owns (c : Thread nD τ) (ms1_1 t) fullShare (iblk1 V c 1 t)
      ∧ (dat1 V c).leavesExact 2 t = owns (c : Thread nD τ) (ms1_2 t) fullShare (iblk1 V c 2 t) :=
  ⟨rfl, rfl, rfl⟩

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [(before1 V c t).1, (before1 V c t).2.1, (before1 V c t).2.2]
  rw [show (dat1 V c).owesAt () t.succ = (dat1 V c).owesAt () t.castSucc from rfl,
    show (dat1 V c).Φ t.succ = rest1 c (owns (c : Thread nD τ) scM1_k1 fullShare (sAt1 V c t.val t.isLt)) from rfl,
    (leaves1 V c t).1, (leaves1 V c t).2.1, (leaves1 V c t).2.2,
    show (dat1 V c).Φ t.castSucc = PhiS1 V c t.val (Nat.le_of_lt t.isLt) from rfl]
  have hne : cond1_0 (grid1.coords t) → ¬cond1_1 (grid1.coords t) := fun h0 h1 => by
    have a := (hcond1_0 t).mp h0; have b := (hcond1_1 t).mp h1; omega
  iintro ⟨HΦ, Ho, ⟨%d0, H0⟩, ⟨%d1, H1⟩, ⟨%d2, H2⟩, ⟨%d3, H3⟩⟩
  icases (PhiS1_open V c t) $$ HΦ with ⟨%xs0, %hx, ⟨HS, HR⟩, Hg⟩
  iapply (kernelRun1 c (grid1.coords t) _ _ _ _ _ _ _ _ _ _ (iblk1 V c 0 t) (iblk1 V c 1 t) (iblk1 V c 2 t) hne ((dat1 V c).before 3 t d3) xs0 Set.univ _)
  iframe H0 H1 H2 H3 HS
  iintro ⟨H0, H1, H2, H3, HS⟩
  rw [hx]; unfold stepAt1 rest1
  iframe H0 H1 H2 HS HR Hg Ho
  by_cases hc1 : cond1_1 (grid1.coords t)
  · rw [show (dat1 V c).leavesExact 3 t = owns (c : Thread nD τ) (ms1_3 t) fullShare ((dat1 V c).after 3 t) from by
      unfold Dat.leavesExact; rw [liveAt1_3 t hc1], after1_3, hx, if_pos hc1]
    unfold stepAt1
    iexact H3
  · rw [Dat.leavesExact_idle (dat1 V c) 3 t (offAt1_3 t hc1).1 (offAt1_3 t hc1).2, if_neg hc1]
    iexists d3; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Entails.of_eq rfl

theorem hout1 (c : Dev nD) : (dat1 V c).Φ (Fin.last cfg1.N) ⊢ Pipeline.ΦA spec1 c := by
  rw [PhiA1_eq]; exact PhiS1_any V c _ (Nat.le_of_lt_succ (Fin.last cfg1.N).isLt)

end Cert.Kernel.Hand

end
-- ==== Proof.K.Reg2.lean ====
import proofs.«423191_j44616120271607_3_alg».proof.Proof.Gen.Kernel.Launch
import proofs.«423191_j44616120271607_3_alg».proof.Proof.Gen.Kernel.Skeleton
import proofs.«423191_j44616120271607_3_alg».proof.Proof.Gen.Kernel.Points
import proofs.«423191_j44616120271607_3_alg».proof.Proof.Gen.Kernel.Loops
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1

theorem hcond2_0 : ∀ t : Fin cfg2.N, cond2_0 (grid2.coords t) ↔ t.val % 250 = 0 :=
  (by decide +kernel : ∀ t : Fin grid2.N, cond2_0 (grid2.coords t) ↔ t.val % 250 = 0)
theorem hcond2_1 : ∀ t : Fin cfg2.N, cond2_1 (grid2.coords t) ↔ t.val % 250 = 249 :=
  (by decide +kernel : ∀ t : Fin grid2.N, cond2_1 (grid2.coords t) ↔ t.val % 250 = 249)

abbrev rS : Rect S1024 := Rect.unit (s := S1024) ![0] S1024.size inb_S1024_S1024_0
abbrev rH : Rect S2000x2 := Rect.unit (s := S2000x2) ![0, 0] S2000x1.size inb_S2000x2_S2000x1_0_0
abbrev rT : Rect S2000x2 := Rect.unit (s := S2000x2) ![0, 1] S2000x1.size inb_S2000x2_S2000x1_0_1

theorem hz1_k2 : (![0] : Fin 1 → Nat) = fun _ => 0 := funext fun a => by fin_cases a; rfl

def upd (i : grid2.Coords) (x : Vec F S2000x2 .i32) (s : Vec F S1024 .f32) : Vec F S1024 .f32 :=
  k2_pay2 i (View.ld x rH) (View.ld x rT) s

def zero2 : Vec F S1024 .f32 := k2_pay1

theorem cover_rS (p : Vec F S1024 .f32) (L : List (View.Piece (Elt F) S1024 .f32)) (y : S1024.Idx) :
    ∃ pc ∈ ((⟨rS, p⟩ : View.Piece (Elt F) S1024 .f32) :: L), y ∈ pc.1.set :=
  ⟨⟨rS, p⟩, List.Mem.head _, View.mem_set_unit_zero hz1_k2 inb_S1024_S1024_0 y⟩

-- One run of the body: the accumulator restarts from zero where the first test holds and is copied out where the second holds.
theorem run2 (c : Dev nD) (i : grid2.Coords) (arg2 : Memref sig .tc .vmem S2000x2 .i32) (harg2 : arg2.IsWhole)
    (arg3 : Memref sig .tc .vmem S1024 .f32) (harg3 : arg3.IsWhole) (arg4 : Memref sig .tc .vmem S1024 .f32) (harg4 : arg4.IsWhole)
    (hx : cond2_0 i → ¬cond2_1 i) (x0 : Vec F S2000x2 .i32) (xi1 xs : Vec F S1024 .f32) (E : Set ℕ) (K : PUnit → sProp 𝕄) :
    iprop(owns (c : Thread nD τ) arg2 fullShare x0 ∗ owns (c : Thread nD τ) arg3 fullShare xi1 ∗ owns (c : Thread nD τ) arg4 fullShare xs
        ∗ (iprop(owns (c : Thread nD τ) arg2 fullShare x0
            ∗ owns (c : Thread nD τ) arg3 fullShare (if cond2_1 i then upd i x0 (if cond2_0 i then zero2 else xs) else xi1)
            ∗ owns (c : Thread nD τ) arg4 fullShare (upd i x0 (if cond2_0 i then zero2 else xs))) -∗ K ⟨⟩))
      ⊢ wp frame (wpE (defs₀ (F := F)) Variants.none c none) E (cc2__count_kernel i arg2 harg2 arg3 harg3 arg4 harg4) K := by
  simp only [cc2__count_kernel_eq_skeleton]; unfold cc2__count_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  by_cases hc0 : cond2_0 i <;> by_cases hc1 : cond2_1 i
  · exact absurd hc1 (hx hc0)
  all_goals
    try rw [if_pos hc0]
    try rw [if_neg hc0]
    try rw [if_pos hc1]
    try rw [if_neg hc1]
    sl_exec (disch := first | exact hc0 | exact hc1)
    sl_step
    iapply Hk
    isplitl [H0]
    · iexists _; isplitr; · ipureintro; exact harg2.read_unread _
      iexact H0
    isplitl [H1] <;> (iexists _; isplitr; swap; · first | iexact H1 | iexact HS0)
    all_goals
      ipureintro
      first
      | (try sl_unfold_words
         rw [View.read_writes_eq_canon _ _ _ (cover_rS _ _)]
         first | rw [View.canon_cons_unit_zero hz1_k2] | rw [View.canon_unit_zero hz1_k2]
         simp only [upd, zero2, View.readAt_eq_ld, harg2.read_unread, harg4.read_unread, View.ld_unit_zero (S := S1024) hz1_k2,
           View.readCov_unit_zero (S := S1024) _ hz1_k2]
         try rfl)
      | exact harg3.read_unread _

theorem idleAt2_1 (t : Fin cfg2.N) (h : ¬cond2_1 (grid2.coords t)) : cfg2.idle 1 (grid2.coords t) = true := by
  show (!(k2_cond2 (grid2.coords t) == 1#1)) = true
  rw [beq_false_of_ne h]; rfl
theorem noFlush2_1 (t : Fin cfg2.N) (h : ¬cond2_1 (grid2.coords t)) : (cfg2.win 1).flush t = false :=
  Bool.eq_false_iff.mpr fun hf => h ((hcond2_1 t).mpr ((flush2_1 t).mp hf))
theorem liveAt2_1 (t : Fin cfg2.N) (h : cond2_1 (grid2.coords t)) : cfg2.idle 1 (grid2.coords t) = false := by
  show (!(k2_cond2 (grid2.coords t) == 1#1)) = false
  rw [show k2_cond2 (grid2.coords t) = 1#1 from h]; rfl

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xblk (c : Dev nD) (t : Fin cfg2.N) : Vec F S2000x2 .i32 := iblk2 V c 0 t

def scr (c : Dev nD) : (n : ℕ) → n < cfg2.N → Vec F S1024 .f32
  | 0, h => upd (grid2.coords ⟨0, h⟩) (xblk V c ⟨0, h⟩) zero2
  | n + 1, h =>
    if (n + 1) % 250 = 0 then upd (grid2.coords ⟨n + 1, h⟩) (xblk V c ⟨n + 1, h⟩) zero2
    else upd (grid2.coords ⟨n + 1, h⟩) (xblk V c ⟨n + 1, h⟩) (scr c n (Nat.lt_of_succ_lt h))

theorem scr_first (c : Dev nD) (t : Fin cfg2.N) (h0 : t.val % 250 = 0) :
    scr V c t.val t.isLt = upd (grid2.coords t) (xblk V c t) zero2 := by
  obtain ⟨n, hn⟩ := t
  cases n with
  | zero => rfl
  | succ n => exact if_pos h0

theorem scr_next (c : Dev nD) (t : Fin cfg2.N) (h0 : ¬t.val % 250 = 0) :
    scr V c t.val t.isLt = upd (grid2.coords t) (xblk V c t) (scr V c (t.val - 1) (Nat.lt_of_le_of_lt (Nat.sub_le _ _) t.isLt)) := by
  obtain ⟨n, hn⟩ := t
  cases n with
  | zero => exact absurd (Nat.zero_mod _) h0
  | succ n => exact if_neg h0

abbrev scM2 : Memref sig .tc .vmem S1024 .f32 := Memref.whole cc2_scratch0

theorem PhiA2_eq (c : Dev nD) :
    (Pipeline.ΦA spec2 c : sProp 𝕄)
      = iprop(iprop((∃ d, owns (c : Thread nD τ) scM2 fullShare d)
            ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; try rfl

-- Between points the accumulator holds some contents which, past the first point, are what the point before left.
def PhiS2 (c : Dev nD) (n : ℕ) (h : n ≤ cfg2.N) : sProp 𝕄 :=
  iprop(iprop((∃ d, ⌜∀ hz : n ≠ 0, d = scr V c (n - 1) (by omega)⌝ ∗ owns (c : Thread nD τ) scM2 fullShare d)
      ∗ Pipeline.scopedRestBut (Ix := Unit) (Name := ℕ) (U := UR sig nD τ) (Lvl := ℕ) (Val := Elt F) spec2 c [cc2_scratch0])
    ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => scr V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_1 (c : Dev nD) (t : Fin cfg2.N) : (dat2 V c).after 1 t = scr V c t.val t.isLt := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl

theorem sound_body2 (c : Dev nD) (t : Fin cfg2.N) :
    iprop(PhiS2 V c t.val (Nat.le_of_lt t.isLt) ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d)))
      ⊢ wp frame (wpE (defs₀ (F := F)) Variants.none c none) Set.univ (bodyAt2 t) (fun _ =>
        iprop(PhiS2 V c (t.val + 1) t.isLt ∗ (dat2 V c).owesAt () t.castSucc
          ∗ owns (c : Thread nD τ) (st2_0 t) fullShare (xblk V c t) ∗ (dat2 V c).leavesExact 1 t)) := by
  unfold bodyAt2 PhiS2
  simp only [before2_0]
  have e0 := hcond2_0 t
  have e1 := hcond2_1 t
  iintro ⟨⟨⟨⟨%ds, %hds, HS⟩, Hr⟩, Hg⟩, Ho, ⟨%d0, H0⟩, ⟨%d1, H1⟩⟩
  have hs : scr V c t.val t.isLt = upd (grid2.coords t) (xblk V c t) (if cond2_0 (grid2.coords t) then zero2 else ds) := by
    by_cases h0 : t.val % 250 = 0
    · rw [scr_first V c t h0, if_pos (e0.mpr h0)]
    · rw [scr_next V c t h0, if_neg (mt e0.mp h0), hds fun e => h0 (by rw [e])]
  iapply (run2 c (grid2.coords t) _ _ _ _ _ _ (fun a b => by have := e0.mp a; have := e1.mp b; omega) (xblk V c t)
    ((dat2 V c).before 1 t d1) ds Set.univ _)
  iframe H0 H1 HS
  rw [← hs]
  iintro ⟨H0, H1, HS⟩
  iframe Hr Hg Ho H0
  isplitl [HS]
  · iexists scr V c t.val t.isLt; isplitr; · ipureintro; exact fun _ => rfl
    iexact HS
  by_cases h1 : cond2_1 (grid2.coords t)
  · rw [if_pos h1, show (dat2 V c).leavesExact 1 t = owns (c : Thread nD τ) (st2_1 t) fullShare ((dat2 V c).after 1 t) from by
      unfold Dat.leavesExact; rw [liveAt2_1 t h1], after2_1]
    iexact H1
  · rw [if_neg h1, Dat.leavesExact_idle (dat2 V c) 1 t (idleAt2_1 t h1) (noFlush2_1 t h1)]
    iexists _; iexact H1

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [PhiA2_eq, show (dat2 V c).Φ 0 = PhiS2 V c 0 (Nat.zero_le _) from rfl]; unfold PhiS2
  iintro ⟨⟨⟨%d, HS⟩, Hr⟩, Hg⟩
  iframe Hr Hg
  iexists d; isplitr; · ipureintro; exact fun hz => absurd rfl hz
  iexact HS

theorem hout2 (c : Dev nD) : (dat2 V c).Φ (Fin.last cfg2.N) ⊢ Pipeline.ΦA spec2 c := by
  rw [PhiA2_eq, show (dat2 V c).Φ (Fin.last cfg2.N) = PhiS2 V c cfg2.N (Nat.le_refl _) from rfl]; unfold PhiS2
  iintro ⟨⟨⟨%d, -, HS⟩, Hr⟩, Hg⟩
  iframe Hr Hg
  iexists d; iexact HS

end Cert.Kernel.Hand

end
-- ==== Proof.K.Reg3.lean ====
import proofs.«423191_j44616120271607_3_alg».proof.Proof.Gen.Kernel.Launch
import proofs.«423191_j44616120271607_3_alg».proof.Proof.Gen.Kernel.Skeleton
import proofs.«423191_j44616120271607_3_alg».proof.Proof.Gen.Kernel.Points
import proofs.«423191_j44616120271607_3_alg».proof.Proof.Gen.Kernel.Loops
import Idealize.ShloMosaic.Lib.Pipeline.FrameBody
import Idealize.ShloMosaic.Lib.Pipeline.Regions
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rM : Rect S1000x128 := Rect.unit (s := S1000x128) ![0, 0] S1000x128.size inb_S1000x128_S1000x128_0_0
abbrev rC : Rect S1000x1 := Rect.unit (s := S1000x1) ![0, 0] S1000x1.size inb_S1000x1_S1000x1_0_0
abbrev rL : Rect S128 := Rect.unit (s := S128) ![0] S128.size inb_S128_S128_0

def out3_5 (x0 : Vec F S1000x128 .f32) (x1 : Vec F S1000x1 .f32) (x2 : Vec F S1000x128 .f32) (x3 : Vec F S128 .f32) (x4 : Vec F S128 .f32) :
    Vec F S1000x128 .f32 :=
  View.canon [⟨rM, k3_pay1 (View.ld x0 rM) (View.ld x1 rC) (View.ld x2 rM) (View.ld x3 rL) (View.ld x4 rL)⟩]

theorem cover3_5 (p0 : Vec F S1000x128 .f32) (y : S1000x128.Idx) :
    ∃ pc ∈ ([⟨rM, p0⟩] : List (View.Piece (Elt F) S1000x128 .f32)), y ∈ pc.1.set :=
  View.cover_of_tiled [⟨rM, p0⟩] S1000x128.size (by rfl) y

theorem sound_kernel3 (c : Dev nD) (E : Set ℕ) (i : grid3.Coords)
    (arg1 : Memref sig .tc .vmem S1000x128 .f32) (harg1 : arg1.IsWhole) (arg2 : Memref sig .tc .vmem S1000x1 .f32) (harg2 : arg2.IsWhole)
    (arg3 : Memref sig .tc .vmem S1000x128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S1000x128 .f32) (harg6 : arg6.IsWhole)
    (x0 : Vec F S1000x128 .f32) (x1 : Vec F S1000x1 .f32) (x2 : Vec F S1000x128 .f32) (x3 : Vec F S128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__final_kernel i arg1 harg1 arg2 harg2 arg3 harg3 arg4 harg4 arg5 harg5 arg6 harg6) K := by
  simp only [cc3__final_kernel_eq_skeleton]; unfold cc3__final_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]; swap; isplitl [H1]; swap; isplitl [H2]; swap; isplitl [H3]; swap; isplitl [H4]; swap
  · iexists _; isplitr; swap; · iexact H5
    ipureintro; exact View.read_writes_eq_canon _ _ _ (cover3_5 _)
  all_goals
    iexists _; isplitr; · ipureintro; rfl
    iassumption

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem after3 (c : Dev nD) (t : Fin cfg3.N) :
    (dat3 V c).after 0 t = iblk3 V c 0 t ∧ (dat3 V c).after 1 t = iblk3 V c 1 t ∧ (dat3 V c).after 2 t = iblk3 V c 2 t
      ∧ (dat3 V c).after 3 t = iblk3 V c 3 t ∧ (dat3 V c).after 4 t = iblk3 V c 4 t := by
  refine ⟨?_, ?_, ?_, ?_, ?_⟩ <;> dsimp only [dat3]

theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t)
      ∧ (∀ d, (dat3 V c).before 4 t d = iblk3 V c 4 t) := by
  refine ⟨?_, ?_, ?_, ?_, ?_⟩ <;> exact fun d =>
    ((dat3 V c).before_in_eq_fetched _ (by rfl) (fun _ => by rfl) (fun _ _ _ => by rfl) (fun _ => by rfl) t d).trans (by rfl)

theorem sound_body3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d))
        ∗ (∃ d, owns (c : Thread nD τ) (st3_3 t) fullShare ((dat3 V c).before 3 t d))
        ∗ (∃ d, owns (c : Thread nD τ) (st3_4 t) fullShare ((dat3 V c).before 4 t d))
        ∗ (∃ d, owns (c : Thread nD τ) (st3_5 t) fullShare ((dat3 V c).before 5 t d)))
      ⊢ wp frame (wpE (defs₀ (F := F)) Variants.none c none) Set.univ (bodyAt3 t) (fun _ =>
        iprop((dat3 V c).Φ t.castSucc ∗ (dat3 V c).owesAt () t.castSucc
          ∗ owns (c : Thread nD τ) (st3_0 t) fullShare ((dat3 V c).after 0 t)
          ∗ owns (c : Thread nD τ) (st3_1 t) fullShare ((dat3 V c).after 1 t)
          ∗ owns (c : Thread nD τ) (st3_2 t) fullShare ((dat3 V c).after 2 t)
          ∗ owns (c : Thread nD τ) (st3_3 t) fullShare ((dat3 V c).after 3 t)
          ∗ owns (c : Thread nD τ) (st3_4 t) fullShare ((dat3 V c).after 4 t)
          ∗ owns (c : Thread nD τ) (st3_5 t) fullShare ((dat3 V c).after 5 t))) := by
  unfold bodyAt3
  have hb := before3 V c t
  have ha := after3 V c t
  simp only [hb.1, hb.2.1, hb.2.2.1, hb.2.2.2.1, hb.2.2.2.2, ha.1, ha.2.1, ha.2.2.1, ha.2.2.2.1, ha.2.2.2.2, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end Cert.Kernel.Hand

end
-- ==== Proof.K.Halves.lean ====
import proofs.«423191_j44616120271607_3_alg».proof.Proof.K.Launch
import proofs.«423191_j44616120271607_3_alg».proof.Proof.K.Reg0
import proofs.«423191_j44616120271607_3_alg».proof.Proof.K.Reg1
import proofs.«423191_j44616120271607_3_alg».proof.Proof.K.Reg2
import proofs.«423191_j44616120271607_3_alg».proof.Proof.K.Reg3

noncomputable section

namespace Cert.Kernel.Hand

open Cert.Kernel Cert.Kernel.Gen Idealize.ShloMosaic Idealize.ShloMosaic.TcCoe

variable {F : FTy → Type} [FloatOps F]

def half0 : Half0 (F := F) := ⟨dat0, A_eq0, fun _ _ _ => rfl, fun _ _ _ => rfl, fun _ _ _ => rfl, body_obligation0, hin0, hout0⟩
def half1 : Half1 (F := F) := ⟨dat1, A_eq1, fun _ _ _ => rfl, fun _ _ _ => rfl, fun _ _ _ => rfl, body_obligation1, hin1, hout1⟩
def half2 : Half2 (F := F) := ⟨dat2, A_eq2, fun _ _ _ => rfl, fun _ _ _ => rfl, fun _ _ _ => rfl, body_obligation2, hin2, hout2⟩
def half3 : Half3 (F := F) := ⟨dat3, A_eq3, fun _ _ _ => rfl, fun _ _ _ => rfl, fun _ _ _ => rfl, body_obligation3, hin3, hout3⟩

end Cert.Kernel.Hand

end
-- ==== Proof.KI.Launch.lean ====
import proofs.«423191_j44616120271607_3_alg».proof.Proof.Gen.KernelIdeal.Launch
import proofs.«423191_j44616120271607_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Ent : Type := (c : Dev nD) → (b : Ref sig .tc) → Buf (Elt F) ((c : Thread nD τ).loc b)

/-- What a stage is certified from, at any contents `V` of the buffers on entry. -/
structure Half (cfg : Pipeline.Cfg sig Λ₀) where
  dat : Ent (F := F) → (c : Dev nD) → Dat τ (Elt F) Unit ℕ (UR sig nD τ) ℕ cfg c
  A_eq : ∀ V c w, (dat V c).A w = V c (Pipeline.arrRef cfg.spec w)
  q_eq : ∀ V c w, (dat V c).q w = fullShare
  owed_eq : ∀ V c t, (dat V c).owed t = 0
  rec_eq : ∀ V c t, (dat V c).recorded t = Set.univ
  body : ∀ V c, BodyObligation (dat V c) (defs₀ (F := F)) Variants.none () Set.univ
  hin : ∀ V c, (Pipeline.ΦA cfg.spec c : sProp 𝕄) ⊢ (dat V c).Φ 0
  hout : ∀ V c, (dat V c).Φ (Fin.last cfg.N) ⊢ (Pipeline.ΦA cfg.spec c : sProp 𝕄)

abbrev Half0 := Half (F := F) cfg0
abbrev Half1 := Half (F := F) cfg1
abbrev Half2 := Half (F := F) cfg2
abbrev Half3 := Half (F := F) cfg3

section Stage

variable {cfg : Pipeline.Cfg sig Λ₀} (h : Half (F := F) cfg) (W : Dev nD → Valuation τ sig (Elt F)) (c : Dev nD)

/-- What a stage entered at `W` leaves: its arrays at their last contents, every other buffer as entered. -/
abbrev Half.next : Valuation τ sig (Elt F) :=
  Pipeline.withArrays cfg.spec c (W c) fun w => (h.dat (fun c b => W c b) c).arrAt w cfg.N

/-- An input array's contents do not change along the stage. -/
theorem Half.next_in (hinj : Function.Injective (Pipeline.arrRef cfg.spec)) (w : Fin cfg.W) (hw : (cfg.win w).isOut = false) :
    h.next W c (Proc.devRef .tc (Pipeline.arrRef cfg.spec w)) = W c (Proc.devRef .tc (Pipeline.arrRef cfg.spec w)) :=
  (Pipeline.withArrays_arr _ hinj c _ _ w).trans (((h.dat _ c).arrAt_in w hw _).trans (h.A_eq _ c w))

/-- Nor do those of any buffer that is no output array of the stage. -/
theorem Half.next_keep (hinj : Function.Injective (Pipeline.arrRef cfg.spec)) (b : Ref sig .tc)
    (hb : ∀ w, (cfg.win w).isOut = true → Pipeline.arrRef cfg.spec w ≠ b) :
    h.next W c (Proc.devRef .tc b) = W c (Proc.devRef .tc b) := by
  by_cases e : ∃ w, Pipeline.arrRef cfg.spec w = b
  · obtain ⟨w, rfl⟩ := e
    exact h.next_in W c hinj w (Bool.eq_false_iff.mpr fun hw => hb w hw rfl)
  · exact Pipeline.withArrays_of_ne _ c _ _ b fun w hw => e ⟨w, hw⟩

end Stage

variable (h0 : Half0 (F := F)) (h1 : Half1 (F := F)) (h2 : Half2 (F := F)) (h3 : Half3 (F := F))
variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : Ent (F := F) := fun c b => W3 m c b
def W4 (c : Dev nD) : Valuation τ sig (Elt F) :=
  Pipeline.withArrays spec0 c (W3 m c) fun w => (h0.dat (V3 m) c).arrAt w cfg0.N
abbrev V4 : Ent (F := F) := fun c b => W4 h0 m c b
def W5 (c : Dev nD) : Valuation τ sig (Elt F) :=
  Pipeline.withArrays spec1 c (W4 h0 m c) fun w => (h1.dat (V4 h0 m) c).arrAt w cfg1.N
abbrev W6 : Dev nD → Valuation τ sig (Elt F) := fun c => StableHlo.after hostOps2 (W5 h0 h1 m c)
abbrev V6 : Ent (F := F) := fun c b => W6 h0 h1 m c b
def W7 (c : Dev nD) : Valuation τ sig (Elt F) :=
  Pipeline.withArrays spec2 c (W6 h0 h1 m c) fun w => (h2.dat (V6 h0 h1 m) c).arrAt w cfg2.N
abbrev W8 : Dev nD → Valuation τ sig (Elt F) := fun c => StableHlo.after hostOps3 (W7 h0 h1 h2 m c)
abbrev V8 : Ent (F := F) := fun c b => W8 h0 h1 h2 m c b
def W9 (c : Dev nD) : Valuation τ sig (Elt F) :=
  Pipeline.withArrays spec3 c (W8 h0 h1 h2 m c) fun w => (h3.dat (V8 h0 h1 h2 m) c).arrAt w cfg3.N

theorem W4_arr (c : Dev nD) (w : Fin cfg0.W) :
    W4 h0 m c (Proc.devRef .tc (Pipeline.arrRef spec0 w)) = (h0.dat (V3 m) c).arrAt w cfg0.N :=
  Pipeline.withArrays_arr spec0 launch0.win.arr_inj c _ _ w
theorem W4_of_ne (c : Dev nD) (b : Ref sig .tc) (hb : ∀ w, Pipeline.arrRef spec0 w ≠ b) :
    W4 h0 m c (Proc.devRef .tc b) = W3 m c (Proc.devRef .tc b) :=
  Pipeline.withArrays_of_ne spec0 c _ _ b hb
theorem W4_in (c : Dev nD) (w : Fin cfg0.W) (hw : (cfg0.win w).isOut = false) :
    W4 h0 m c (Proc.devRef .tc (Pipeline.arrRef spec0 w)) = W3 m c (Proc.devRef .tc (Pipeline.arrRef spec0 w)) :=
  h0.next_in (W3 m) c launch0.win.arr_inj w hw

theorem W5_arr (c : Dev nD) (w : Fin cfg1.W) :
    W5 h0 h1 m c (Proc.devRef .tc (Pipeline.arrRef spec1 w)) = (h1.dat (V4 h0 m) c).arrAt w cfg1.N :=
  Pipeline.withArrays_arr spec1 launch1.win.arr_inj c _ _ w
theorem W5_of_ne (c : Dev nD) (b : Ref sig .tc) (hb : ∀ w, Pipeline.arrRef spec1 w ≠ b) :
    W5 h0 h1 m c (Proc.devRef .tc b) = W4 h0 m c (Proc.devRef .tc b) :=
  Pipeline.withArrays_of_ne spec1 c _ _ b hb
theorem W5_in (c : Dev nD) (w : Fin cfg1.W) (hw : (cfg1.win w).isOut = false) :
    W5 h0 h1 m c (Proc.devRef .tc (Pipeline.arrRef spec1 w)) = W4 h0 m c (Proc.devRef .tc (Pipeline.arrRef spec1 w)) :=
  h1.next_in (W4 h0 m) c launch1.win.arr_inj w hw

theorem W7_arr (c : Dev nD) (w : Fin cfg2.W) :
    W7 h0 h1 h2 m c (Proc.devRef .tc (Pipeline.arrRef spec2 w)) = (h2.dat (V6 h0 h1 m) c).arrAt w cfg2.N :=
  Pipeline.withArrays_arr spec2 launch2.win.arr_inj c _ _ w
theorem W7_of_ne (c : Dev nD) (b : Ref sig .tc) (hb : ∀ w, Pipeline.arrRef spec2 w ≠ b) :
    W7 h0 h1 h2 m c (Proc.devRef .tc b) = W6 h0 h1 m c (Proc.devRef .tc b) :=
  Pipeline.withArrays_of_ne spec2 c _ _ b hb

/-- A buffer that no host stretch writes and no stage has among its output arrays ends as launched. -/
theorem W9_kept (c : Dev nD) (b : Ref sig .tc)
    (hb : (b ∉ hostOps0_W ∧ b ∉ hostOps0_1_W ∧ b ∉ hostOps0_2_W ∧ b ∉ hostOps2_W ∧ b ∉ hostOps3_W)
      ∧ ∀ (p : Fin 4) w, ((cfgs p).win w).isOut = true → Pipeline.arrRef (cfgs p).spec w ≠ b) :
    W9 h0 h1 h2 h3 m c (Proc.devRef .tc b) = m ((c : Thread nD τ).loc b) :=
  (h3.next_keep (W8 h0 h1 h2 m) c launch3.win.arr_inj b (hb.2 3)).trans <|
  (StableHlo.after_of_writes_sub hostOps3 _ hostOps3_writes hb.1.2.2.2.2).trans <|
  (h2.next_keep (W6 h0 h1 m) c launch2.win.arr_inj b (hb.2 2)).trans <|
  (StableHlo.after_of_writes_sub hostOps2 _ hostOps2_writes hb.1.2.2.2.1).trans <|
  (h1.next_keep (W4 h0 m) c launch1.win.arr_inj b (hb.2 1)).trans <|
  (h0.next_keep (W3 m) c launch0.win.arr_inj b (hb.2 0)).trans <|
  (StableHlo.after_of_writes_sub hostOps0_2 _ hostOps0_2_writes hb.1.2.2.1).trans <|
  (StableHlo.after_of_writes_sub hostOps0_1 _ hostOps0_1_writes hb.1.2.1).trans <|
  StableHlo.after_of_writes_sub hostOps0 _ hostOps0_writes hb.1.1

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- Between two items every buffer holds the contents `W`. -/
abbrev stateAt (W : Dev nD → Valuation τ sig (Elt F)) (c : Dev nD) : sProp 𝕄 :=
  iprop(StableHlo.held (c : Thread nD τ) (Pipeline.ucRefs τ sig) (W c) ∗ R c)

section Stages

variable (H : (p : Fin 4) → Half (F := F) (cfgs p)) (Wp : Fin 4 → Dev nD → Valuation τ sig (Elt F))

/-- Every stage's proof data at the contents the stage is entered from. -/
def stageDat (p : Fin 4) (c : Dev nD) : Dat τ (Elt F) Unit ℕ (UR sig nD τ) ℕ (Pipeline.pin (pcfgs (F := F)) adm p) c :=
  (H p).dat (fun c b => Wp p c b) c

set_option backward.isDefEq.respectTransparency.types false in
/-- Stage `p` as a segment from `stateAt (Wp p)` to the state at what the stage leaves. -/
def stageSeg (p : Fin 4) (l : Pipeline.LaunchFacts (nD := nD) (τ := τ) cfgs p) :
    Pipeline.RegionSeg (pcfgs (F := F)) adm (stageDat H Wp) () defs₀ 𝒱₀ L lv p where
  win := l.win.to₀
  block_pos := l.block_pos
  stage_whole := l.stage_whole
  K := PEmpty
  osem k := k.elim
  ho := Pipeline.OwnSemFacts.none _
  hbody c := ((H p).body _ c).loose
  hwaits := Pipeline.hwaits_of_owed_zero _ _ _ _ L lv p fun c t => (H p).owed_eq _ c t
  pre := stateAt (Wp p)
  post := stateAt ((H p).next (Wp p))
  X c := iprop(∃ r, prngReg c r)
  Y c := iprop(∃ r, prngReg c r)
  Z c := Pipeline.unscopedRest (Ix := Unit) (Name := ℕ) (U := UR sig nD τ) (Lvl := ℕ) (cfgs p).spec c (fun b => Wp p c (Proc.devRef .tc b))
  hentry c := by
    rw [Pipeline.ownSems0_none]
    have hsplit := Pipeline.arrays_of_unscopedBufs (p := p) (pcfgs (F := F)) adm (stageDat H Wp) l.win l.arr_whole c
      ((stageDat H Wp p c).share_full fun w => (H p).q_eq _ c w) (fun b => Wp p c (Proc.devRef .tc b)) fun w => (H p).A_eq _ c w
    rw [Pipeline.unscopedBufs_held] at hsplit
    iintro ⟨⟨Hub, Hp, HO⟩, -, -⟩
    ihave H' := hsplit $$ Hub
    icases H' with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (stageDat H Wp p c).owed 0 = 0 from (H p).owed_eq _ c 0]
      icases HO with ⟨%W, HO⟩; iexists W; isplitr
      · ipureintro; exact fun _ _ => Or.inl (((H p).rec_eq _ c 0).symm ▸ Set.mem_univ _)
      iexact HO
    isplitl [Hp]; · iexact Hp
    iexact Hrest
  hin c := (show _ ⊢ (Pipeline.ΦA (cfgs p).spec c : sProp 𝕄) from by
    unfold Pipeline.ΦA
    iintro ⟨Hp, -, Hr⟩
    isplitl [Hr]; · iexact Hr
    iexact Hp).trans ((H p).hin _ c)
  hout c := ((H p).hout _ c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := p) (pcfgs (F := F)) adm (Ix := Unit) (Name := ℕ) (U := UR sig nD τ) (Lvl := ℕ)
      l.win l.arr_whole c (stageDat H Wp) ((stageDat H Wp p c).share_full fun w => (H p).q_eq _ c w)
      (fun b => Wp p c (Proc.devRef .tc b)) (fun b => (H p).next (Wp p) c (Proc.devRef .tc b)) ((stageDat H Wp p c).arrAt · (cfgs p).N)
      (fun w => (Pipeline.withArrays_arr (cfgs p).spec l.win.arr_inj c (Wp p c) (fun w => (stageDat H Wp p c).arrAt w (cfgs p).N) w).symm)
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (stageDat H Wp p c).owed (Fin.last (Pipeline.pin (pcfgs (F := F)) adm p).N) = 0 from (H p).owed_eq _ c _]
    icases HO with ⟨%W, -, HO⟩; iexists W; iexact HO

end Stages

/-- The four halves, and the contents each stage is entered from, by the stage's number. -/
def halves : (p : Fin 4) → Half (F := F) (cfgs p)
  | ⟨0, _⟩ => h0 | ⟨1, _⟩ => h1 | ⟨2, _⟩ => h2 | ⟨3, _⟩ => h3
def Wpre : Fin 4 → Dev nD → Valuation τ sig (Elt F)
  | ⟨0, _⟩ => W3 m | ⟨1, _⟩ => W4 h0 m | ⟨2, _⟩ => W6 h0 h1 m | ⟨3, _⟩ => W8 h0 h1 h2 m
abbrev pdats := stageDat (halves h0 h1 h2 h3) (Wpre h0 h1 h2 m)

/-- A host stretch from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev segs : List (Pipeline.Seg (pcfgs (F := F)) adm (pdats h0 h1 h2 h3 m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (stageSeg (halves h0 h1 h2 h3) (Wpre h0 h1 h2 m) 0 launch0),
    .region (stageSeg (halves h0 h1 h2 h3) (Wpre h0 h1 h2 m) 1 launch1),
    .host (hseg hostOps2 hostOps2_sub hostOps2_fresh (W5 h0 h1 m)),
    .region (stageSeg (halves h0 h1 h2 h3) (Wpre h0 h1 h2 m) 2 launch2),
    .host (hseg hostOps3 hostOps3_sub hostOps3_fresh (W7 h0 h1 h2 m)),
    .region (stageSeg (halves h0 h1 h2 h3) (Wpre h0 h1 h2 m) 3 launch3) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution from `m` terminates, the result array at what the last stage leaves, every argument as launched. -/
theorem run : θ_run defs (onTc (τ := τ) (main (F := F))) ⟨m, fun _ => 0, ρ⟩ (fun r => ∀ c : Dev nD,
      r.2.mem ((c.tc : Thread nD τ).loc main_v9) = (h3.dat (V8 h0 h1 h2 m) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats h0 h1 h2 h3 m) () cellOf_inj emb₁ defs₀ 𝒱₀ L lv m ρ main (segs h0 h1 h2 h3 m)
    (fun c Q => by rw [show main (F := F) c = Pipeline.Seg.run (segs h0 h1 h2 h3 m) from (main_chain c).trans (by chain_rfl)])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [ownU_emb₁, BI.bigSep_emp_const]
      iintro Hu; imodintro
      isplitl [Hu]; · iexact Hu
      iempintro)
    (T₀ := stateAt (W0 m)) (Tₙ := fun c => iprop(StableHlo.held (c : Thread nD τ) (Pipeline.ucRefs τ sig) (W9 h0 h1 h2 h3 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 h0 h1 h2 h3 m c b)
    (hfin := fun c s' => by
      iintro ⟨⟨Hh, -⟩, HSI⟩
      unfold StableHlo.held
      imodintro
      iapply (pointsTo_read_all (Pipeline.ucRefs τ sig) (fun b => (((c : Thread nD τ)).1, b)) (W9 h0 h1 h2 h3 m c) s')
      isplitl [Hh] <;> iassumption)
    (hQ := fun s h c =>
      have k (b : Ref sig .tc) (hb : ¬ (Proc.devRef .tc b : DevRef τ sig).isScoped ∧ _) := (h c _ (mem_uc b hb.1)).trans (W9_kept h0 h1 h2 h3 m c b hb.2)
      ⟨(h c _ (mem_uc main_v9 (by decide))).trans (Pipeline.withArrays_arr spec3 launch3.win.arr_inj c _ _ 5),
       k main_arg0 (by decide), k main_arg1 (by decide), k main_arg2 (by decide), k main_arg3 (by decide), k main_arg4 (by decide),
       k main_arg5 (by decide), k main_arg6 (by decide), k main_arg7 (by decide), k main_arg8 (by decide)⟩)

end Cert.KernelIdeal.Hand

end
-- ==== Proof.KI.Reg0.lean ====
import proofs.«423191_j44616120271607_3_alg».proof.Proof.Gen.KernelIdeal.Launch
import proofs.«423191_j44616120271607_3_alg».proof.Proof.Gen.KernelIdeal.Skeleton
import proofs.«423191_j44616120271607_3_alg».proof.Proof.Gen.KernelIdeal.Points
import proofs.«423191_j44616120271607_3_alg».proof.Proof.Gen.KernelIdeal.Loops
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 49 = 0 :=
  (by decide +kernel : ∀ t : Fin grid0.N, cond0_0 (grid0.coords t) ↔ t.val % 49 = 0)
abbrev cond0_1 (i : grid0.Coords) : Prop := k0_cond2 i = 1#1
theorem hcond0_1 : ∀ t : Fin cfg0.N, cond0_1 (grid0.coords t) ↔ t.val % 49 = 48 :=
  (by decide +kernel : ∀ t : Fin grid0.N, cond0_1 (grid0.coords t) ↔ t.val % 49 = 48)

abbrev rTab (i : grid0.Coords) : Rect S50176x128 := Rect.unit (s := S50176x128) (k0_off1 i) S1024x128.size (k0_off1_inb i)
abbrev rCol0 : Rect S2000x2 := Rect.unit (s := S2000x2) ![0, 0] S2000x1.size inb_S2000x2_S2000x1_0_0
abbrev rCol1 : Rect S2000x2 := Rect.unit (s := S2000x2) ![0, 1] S2000x1.size inb_S2000x2_S2000x1_0_1

def step0 (i : grid0.Coords) (x0 : Vec F S2000x2 .i32) (x1 : Vec F S50176x128 .bf16) (a : Vec F S2000x128 .f32) : Vec F S2000x128 .f32 :=
  k0_pay9 i (View.ld x1 (rTab i)) (View.ld x0 rCol0) a
def step1 (i : grid0.Coords) (x0 : Vec F S2000x2 .i32) (x1 : Vec F S50176x128 .bf16) (a : Vec F S2000x128 .f32) : Vec F S2000x128 .f32 :=
  k0_pay1 (k0_pay10 i (View.ld x1 (rTab i)) (View.ld x0 rCol1) a)

theorem hz2 : (![0, 0] : Fin 2 → ℕ) = fun _ => 0 := by funext a; fin_cases a <;> rfl
theorem hz1 : (![0] : Fin 1 → ℕ) = fun _ => 0 := by funext a; fin_cases a; rfl

-- One point of the body: an accumulator restarts from zero where a run of chunks begins; the two messages are stored where it ends.
def Run0 (i : grid0.Coords) : Prop :=
  ∀ (c : Dev nD) {arg2 : Memref sig .tc .vmem S2000x2 .i32} {harg2 : arg2.IsWhole} {arg3 : Memref sig .tc .vmem S50176x128 .bf16} {harg3 : arg3.IsWhole} {arg4 : Memref sig .tc .vmem S2000x128 .bf16} {harg4 : arg4.IsWhole} {arg5 : Memref sig .tc .vmem S256x128 .f32} {harg5 : arg5.IsWhole} {arg6 : Memref sig .tc .vmem S128 .f32} {harg6 : arg6.IsWhole} {arg7 : Memref sig .tc .vmem S256x128 .f32} {harg7 : arg7.IsWhole} {arg8 : Memref sig .tc .vmem S128 .f32} {harg8 : arg8.IsWhole} {arg9 : Memref sig .tc .vmem S2000x128 .bf16} {harg9 : arg9.IsWhole} {arg10 : Memref sig .tc .vmem S2000x128 .bf16} {harg10 : arg10.IsWhole} {arg11 : Memref sig .tc .vmem S2000x128 .f32} {harg11 : arg11.IsWhole} {arg12 : Memref sig .tc .vmem S2000x128 .f32} {harg12 : arg12.IsWhole}
    {x0 : Vec F S2000x2 .i32} {x1 : Vec F S50176x128 .bf16} {x2 : Vec F S2000x128 .bf16} {x3 : Vec F S256x128 .f32} {x4 : Vec F S128 .f32} {x5 : Vec F S256x128 .f32} {x6 : Vec F S128 .f32} {xi7 xi8 : Vec F S2000x128 .bf16} {xs0 xs1 : Vec F S2000x128 .f32} {E : Set ℕ} {K : PUnit → sProp 𝕄},
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare xs0 ∗ owns (c : Thread nD τ) arg12 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (if cond0_1 i then k0_pay3 x2 (step0 i x0 x1 (if cond0_0 i then k0_pay5 else xs0)) x3 x4 else xi7)
            ∗ owns (c : Thread nD τ) arg10 fullShare (if cond0_1 i then k0_pay4 x2 (step1 i x0 x1 (if cond0_0 i then k0_pay6 else xs1)) x5 x6 else xi8)
            ∗ owns (c : Thread nD τ) arg11 fullShare (step0 i x0 x1 (if cond0_0 i then k0_pay5 else xs0)) ∗ owns (c : Thread nD τ) arg12 fullShare (step1 i x0 x1 (if cond0_0 i then k0_pay6 else xs1))) -∗ K ⟨⟩))
      ⊢ wp frame (wpE (defs₀ (F := F)) Variants.none c none) E (cc0__gather_linear_kernel i arg2 harg2 arg3 harg3 arg4 harg4 arg5 harg5 arg6 harg6 arg7 harg7 arg8 harg8 arg9 harg9 arg10 harg10 arg11 harg11 arg12 harg12) K

set_option maxHeartbeats 2000000 in
theorem run0_A (i : grid0.Coords) (hc0 : cond0_0 i) (hc1 : ¬cond0_1 i) : Run0 (F := F) i := by
  intro c arg2 harg2 arg3 harg3 arg4 harg4 arg5 harg5 arg6 harg6 arg7 harg7 arg8 harg8 arg9 harg9 arg10 harg10 arg11 harg11 arg12 harg12 x0 x1 x2 x3 x4 x5 x6 xi7 xi8 xs0 xs1 E K
  rw [if_pos hc0, if_pos hc0, if_neg hc1, if_neg hc1]
  simp only [cc0__gather_linear_kernel_eq_skeleton]; unfold cc0__gather_linear_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
  sl_exec (disch := first | exact hc0 | exact hc1)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [HS0]; iexists _; isplitr; swap; iexact HS0; rotate_left
  iexists _; isplitr; swap; iexact HS1
  all_goals
    ipureintro
    first
    | with_reducible exact Memref.IsWhole.read_unread _ _
    | sl_unfold_words
      rw [View.read_writes_eq_canon _ _ _ (fun y => ⟨_, List.mem_cons_self, View.mem_set_unit_zero hz2 inb_S2000x128_S2000x128_0_0 y⟩)]
      first | rw [View.canon_unit_zero (S := S2000x128) hz2] | rw [View.canon_cons_unit_zero (S := S2000x128) hz2]
      first | unfold step0 | unfold step1
      simp only [View.readAt_eq_ld, harg2.read_unread, harg3.read_unread, harg4.read_unread, harg5.read_unread, harg6.read_unread, harg7.read_unread, harg8.read_unread, harg11.read_unread, harg12.read_unread, View.ld_unit_zero (S := S2000x128) hz2, View.ld_unit_zero (S := S256x128) hz2, View.ld_unit_zero (S := S128) hz1, View.readCov_unit_zero (S := S2000x128) _ hz2]
      rfl

set_option maxHeartbeats 2000000 in
theorem run0_B (i : grid0.Coords) (hc0 : ¬cond0_0 i) (hc1 : ¬cond0_1 i) : Run0 (F := F) i := by
  intro c arg2 harg2 arg3 harg3 arg4 harg4 arg5 harg5 arg6 harg6 arg7 harg7 arg8 harg8 arg9 harg9 arg10 harg10 arg11 harg11 arg12 harg12 x0 x1 x2 x3 x4 x5 x6 xi7 xi8 xs0 xs1 E K
  rw [if_neg hc0, if_neg hc0, if_neg hc1, if_neg hc1]
  simp only [cc0__gather_linear_kernel_eq_skeleton]; unfold cc0__gather_linear_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
  sl_exec (disch := first | exact hc0 | exact hc1)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [HS0]; iexists _; isplitr; swap; iexact HS0; rotate_left
  iexists _; isplitr; swap; iexact HS1
  all_goals
    ipureintro
    first
    | with_reducible exact Memref.IsWhole.read_unread _ _
    | sl_unfold_words
      rw [View.read_writes_eq_canon _ _ _ (fun y => ⟨_, List.mem_cons_self, View.mem_set_unit_zero hz2 inb_S2000x128_S2000x128_0_0 y⟩)]
      first | rw [View.canon_unit_zero (S := S2000x128) hz2] | rw [View.canon_cons_unit_zero (S := S2000x128) hz2]
      first | unfold step0 | unfold step1
      simp only [View.readAt_eq_ld, harg2.read_unread, harg3.read_unread, harg4.read_unread, harg5.read_unread, harg6.read_unread, harg7.read_unread, harg8.read_unread, harg11.read_unread, harg12.read_unread, View.ld_unit_zero (S := S2000x128) hz2, View.ld_unit_zero (S := S256x128) hz2, View.ld_unit_zero (S := S128) hz1, View.readCov_unit_zero (S := S2000x128) _ hz2]
      rfl

set_option maxHeartbeats 2000000 in
theorem run0_C (i : grid0.Coords) (hc0 : ¬cond0_0 i) (hc1 : cond0_1 i) : Run0 (F := F) i := by
  intro c arg2 harg2 arg3 harg3 arg4 harg4 arg5 harg5 arg6 harg6 arg7 harg7 arg8 harg8 arg9 harg9 arg10 harg10 arg11 harg11 arg12 harg12 x0 x1 x2 x3 x4 x5 x6 xi7 xi8 xs0 xs1 E K
  rw [if_neg hc0, if_neg hc0, if_pos hc1, if_pos hc1]
  simp only [cc0__gather_linear_kernel_eq_skeleton]; unfold cc0__gather_linear_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0; obtain rfl := harg12.eq_unread hfs1
  sl_exec (disch := first | exact hc0 | exact hc1)
  sl_step
  iapply Hk
  isplitl [H0]; iexists _; isplitr; swap; iexact H0; rotate_left
  isplitl [H1]; iexists _; isplitr; swap; iexact H1; rotate_left
  isplitl [H2]; iexists _; isplitr; swap; iexact H2; rotate_left
  isplitl [H3]; iexists _; isplitr; swap; iexact H3; rotate_left
  isplitl [H4]; iexists _; isplitr; swap; iexact H4; rotate_left
  isplitl [H5]; iexists _; isplitr; swap; iexact H5; rotate_left
  isplitl [H6]; iexists _; isplitr; swap; iexact H6; rotate_left
  isplitl [H7]; iexists _; isplitr; swap; iexact H7; rotate_left
  isplitl [H8]; iexists _; isplitr; swap; iexact H8; rotate_left
  isplitl [HS0]; iexists _; isplitr; swap; iexact HS0; rotate_left
  iexists _; isplitr; swap; iexact HS1
  all_goals
    ipureintro
    first
    | with_reducible exact Memref.IsWhole.read_unread _ _
    | sl_unfold_words
      rw [View.read_writes_eq_canon _ _ _ (fun y => ⟨_, List.mem_cons_self, View.mem_set_unit_zero hz2 inb_S2000x128_S2000x128_0_0 y⟩)]
      first | rw [View.canon_unit_zero (S := S2000x128) hz2] | rw [View.canon_cons_unit_zero (S := S2000x128) hz2]
      first | unfold step0 | unfold step1
      simp only [View.readAt_eq_ld, harg2.read_unread, harg3.read_unread, harg4.read_unread, harg5.read_unread, harg6.read_unread, harg7.read_unread, harg8.read_unread, harg11.read_unread, harg12.read_unread, View.ld_unit_zero (S := S2000x128) hz2, View.ld_unit_zero (S := S256x128) hz2, View.ld_unit_zero (S := S128) hz1, View.readCov_unit_zero (S := S2000x128) _ hz2]
      rfl

theorem run0 (i : grid0.Coords) (hc : ¬(cond0_0 i ∧ cond0_1 i)) : Run0 (F := F) i := by
  by_cases hc0 : cond0_0 i <;> by_cases hc1 : cond0_1 i
  exacts [absurd ⟨hc0, hc1⟩ hc, run0_A i hc0 hc1, run0_C i hc0 hc1, run0_B i hc0 hc1]

section Region
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev blk0 (c : Dev nD) (t : Fin cfg0.N) : Vec F S2000x2 .i32 := iblk0 V c 0 t
abbrev blk1 (c : Dev nD) (t : Fin cfg0.N) : Vec F S50176x128 .bf16 := iblk0 V c 1 t
abbrev blk2 (c : Dev nD) (t : Fin cfg0.N) : Vec F S2000x128 .bf16 := iblk0 V c 2 t
abbrev blk3 (c : Dev nD) (t : Fin cfg0.N) : Vec F S256x128 .f32 := iblk0 V c 3 t
abbrev blk4 (c : Dev nD) (t : Fin cfg0.N) : Vec F S128 .f32 := iblk0 V c 4 t
abbrev blk5 (c : Dev nD) (t : Fin cfg0.N) : Vec F S256x128 .f32 := iblk0 V c 5 t
abbrev blk6 (c : Dev nD) (t : Fin cfg0.N) : Vec F S128 .f32 := iblk0 V c 6 t

def acc0 (c : Dev nD) : (n : ℕ) → n < cfg0.N → Vec F S2000x128 .f32
  | 0, hn => step0 (grid0.coords ⟨0, hn⟩) (blk0 V c ⟨0, hn⟩) (blk1 V c ⟨0, hn⟩) k0_pay5
  | n + 1, hn =>
    if (n + 1) % 49 = 0 then step0 (grid0.coords ⟨n + 1, hn⟩) (blk0 V c ⟨n + 1, hn⟩) (blk1 V c ⟨n + 1, hn⟩) k0_pay5
    else step0 (grid0.coords ⟨n + 1, hn⟩) (blk0 V c ⟨n + 1, hn⟩) (blk1 V c ⟨n + 1, hn⟩) (acc0 c n (Nat.lt_of_succ_lt hn))

def acc1 (c : Dev nD) : (n : ℕ) → n < cfg0.N → Vec F S2000x128 .f32
  | 0, hn => step1 (grid0.coords ⟨0, hn⟩) (blk0 V c ⟨0, hn⟩) (blk1 V c ⟨0, hn⟩) k0_pay6
  | n + 1, hn =>
    if (n + 1) % 49 = 0 then step1 (grid0.coords ⟨n + 1, hn⟩) (blk0 V c ⟨n + 1, hn⟩) (blk1 V c ⟨n + 1, hn⟩) k0_pay6
    else step1 (grid0.coords ⟨n + 1, hn⟩) (blk0 V c ⟨n + 1, hn⟩) (blk1 V c ⟨n + 1, hn⟩) (acc1 c n (Nat.lt_of_succ_lt hn))

theorem acc0_first (c : Dev nD) (t : Fin cfg0.N) (h0 : t.val % 49 = 0) :
    acc0 V c t.val t.isLt = step0 (grid0.coords t) (blk0 V c t) (blk1 V c t) k0_pay5 := by
  obtain ⟨_ | n, hn⟩ := t
  exacts [rfl, if_pos h0]

theorem acc0_next (c : Dev nD) (t : Fin cfg0.N) (h0 : ¬t.val % 49 = 0) :
    acc0 V c t.val t.isLt = step0 (grid0.coords t) (blk0 V c t) (blk1 V c t) (acc0 V c (t.val - 1) (Nat.lt_of_le_of_lt (Nat.sub_le _ _) t.isLt)) := by
  obtain ⟨_ | n, hn⟩ := t
  exacts [absurd (Nat.zero_mod _) h0, if_neg h0]

theorem acc1_first (c : Dev nD) (t : Fin cfg0.N) (h0 : t.val % 49 = 0) :
    acc1 V c t.val t.isLt = step1 (grid0.coords t) (blk0 V c t) (blk1 V c t) k0_pay6 := by
  obtain ⟨_ | n, hn⟩ := t
  exacts [rfl, if_pos h0]

theorem acc1_next (c : Dev nD) (t : Fin cfg0.N) (h0 : ¬t.val % 49 = 0) :
    acc1 V c t.val t.isLt = step1 (grid0.coords t) (blk0 V c t) (blk1 V c t) (acc1 V c (t.val - 1) (Nat.lt_of_le_of_lt (Nat.sub_le _ _) t.isLt)) := by
  obtain ⟨_ | n, hn⟩ := t
  exacts [absurd (Nat.zero_mod _) h0, if_neg h0]

def out7 (c : Dev nD) (t : Fin cfg0.N) : Vec F S2000x128 .bf16 :=
  k0_pay3 (blk2 V c t) (acc0 V c t.val t.isLt) (blk3 V c t) (blk4 V c t)
def out8 (c : Dev nD) (t : Fin cfg0.N) : Vec F S2000x128 .bf16 :=
  k0_pay4 (blk2 V c t) (acc1 V c t.val t.isLt) (blk5 V c t) (blk6 V c t)

abbrev scM0 : Memref sig .tc .vmem S2000x128 .f32 := Memref.whole cc0_scratch0
abbrev scM1 : Memref sig .tc .vmem S2000x128 .f32 := Memref.whole cc0_scratch1

abbrev restS (c : Dev nD) : sProp 𝕄 :=
  Pipeline.scopedRestBut (Ix := Unit) (Name := ℕ) (U := UR sig nD τ) (Lvl := ℕ) (Val := Elt F) spec0 c [cc0_scratch0, cc0_scratch1]

-- The launch's invariant with the two accumulators named apart from the rest.
theorem PhiA0_eq (c : Dev nD) :
    (Pipeline.ΦA spec0 c : sProp 𝕄)
      = iprop(iprop(iprop((∃ d, owns (c : Thread nD τ) scM0 fullShare d) ∗ (∃ d, owns (c : Thread nD τ) scM1 fullShare d)) ∗ restS (F := F) c) ∗ (∃ r, prngReg c r)) := by
  unfold Pipeline.ΦA; rw [scopedRest0_split]; simp only [scM0, scM1, owns_whole]; try rfl

def PhiS (c : Dev nD) : (n : ℕ) → n ≤ cfg0.N → sProp 𝕄
  | 0, _ => Pipeline.ΦA spec0 c
  | n + 1, hn => iprop(iprop(iprop(owns (c : Thread nD τ) scM0 fullShare (acc0 V c n hn) ∗ owns (c : Thread nD τ) scM1 fullShare (acc1 V c n hn)) ∗ restS (F := F) c) ∗ (∃ r, prngReg c r))

theorem PhiS_succ (c : Dev nD) (n : ℕ) (hn : n < cfg0.N) :
    PhiS V c (n + 1) hn = iprop(iprop(iprop(owns (c : Thread nD τ) scM0 fullShare (acc0 V c n hn) ∗ owns (c : Thread nD τ) scM1 fullShare (acc1 V c n hn)) ∗ restS (F := F) c) ∗ (∃ r, prngReg c r)) := rfl

theorem PhiS_pos (c : Dev nD) (n : ℕ) (h : n ≤ cfg0.N) (hz : n ≠ 0) :
    PhiS V c n h = iprop(iprop(iprop(owns (c : Thread nD τ) scM0 fullShare (acc0 V c (n - 1) (by omega)) ∗ owns (c : Thread nD τ) scM1 fullShare (acc1 V c (n - 1) (by omega))) ∗ restS (F := F) c) ∗ (∃ r, prngReg c r)) := by
  obtain _ | n := n
  exacts [absurd rfl hz, rfl]

-- At any position the accumulators' contents can be forgotten.
theorem Phi_out0 (c : Dev nD) (n : ℕ) (h : n ≤ cfg0.N) : PhiS V c n h ⊢ Pipeline.ΦA spec0 c := by
  by_cases hz : n = 0
  · subst hz; rw [show PhiS V c 0 h = Pipeline.ΦA spec0 c from rfl]
  rw [PhiS_pos V c _ _ hz, PhiA0_eq]
  iintro ⟨⟨⟨HS0, HS1⟩, HR⟩, Hg⟩
  iframe HR Hg
  isplitl [HS0]; · iexists _; iexact HS0
  iexists _; iexact HS1

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out7 V c t
    | ⟨8, _⟩ => out8 V c t
  Φ t := PhiS V c t.val (Nat.le_of_lt_succ t.isLt)
  q _ := fullShare
  owed _ := 0

theorem A_eq0 (c : Dev nD) (w : Fin cfg0.W) : (dat0 V c).A w = V c (Pipeline.arrRef spec0 w) := rfl
theorem after0_7 (c : Dev nD) (t : Fin cfg0.N) : (dat0 V c).after 7 t = out7 V c t := rfl
theorem after0_8 (c : Dev nD) (t : Fin cfg0.N) : (dat0 V c).after 8 t = out8 V c t := rfl

-- What the body finds in an input window is the window's block of the array.
theorem before0 (c : Dev nD) (t : Fin cfg0.N) :
    (∀ d, (dat0 V c).before 0 t d = blk0 V c t) ∧ (∀ d, (dat0 V c).before 1 t d = blk1 V c t) ∧ (∀ d, (dat0 V c).before 2 t d = blk2 V c t)
      ∧ (∀ d, (dat0 V c).before 3 t d = blk3 V c t) ∧ (∀ d, (dat0 V c).before 4 t d = blk4 V c t) ∧ (∀ d, (dat0 V c).before 5 t d = blk5 V c t)
      ∧ (∀ d, (dat0 V c).before 6 t d = blk6 V c t) := by
  refine ⟨?_, ?_, ?_, ?_, ?_, ?_, ?_⟩ <;>
    exact fun d => ((dat0 V c).before_in_eq_fetched _ rfl (fun _ => rfl) (fun _ _ _ => rfl) (fun _ => rfl) t d).trans rfl

-- Off the last point of a run the body leaves the two output windows as it found them.
theorem leavesIdle0 (c : Dev nD) (t : Fin cfg0.N) (h1 : ¬t.val % 49 = 48) :
    (dat0 V c).leavesExact 7 t = iprop(∃ d, owns (c : Thread nD τ) (st0_7 t) fullShare ((dat0 V c).before 7 t d))
      ∧ (dat0 V c).leavesExact 8 t = iprop(∃ d, owns (c : Thread nD τ) (st0_8 t) fullShare ((dat0 V c).before 8 t d)) := by
  have hi : (!(k0_cond2 (grid0.coords t) == 1#1)) = true := by
    simp only [Bool.not_eq_true', beq_eq_false_iff_ne, ne_eq]; exact fun h => h1 ((hcond0_1 t).mp h)
  exact ⟨Dat.leavesExact_idle (dat0 V c) 7 t hi (Bool.eq_false_iff.mpr fun hf => h1 ((flush0_7 t).mp hf)),
    Dat.leavesExact_idle (dat0 V c) 8 t hi (Bool.eq_false_iff.mpr fun hf => h1 ((flush0_8 t).mp hf))⟩

-- At the last point of a run the two output windows hold the point's messages.
theorem leavesLive0 (c : Dev nD) (t : Fin cfg0.N) (h1 : t.val % 49 = 48) :
    (dat0 V c).leavesExact 7 t = owns (c : Thread nD τ) (st0_7 t) fullShare ((dat0 V c).after 7 t) ∧ (dat0 V c).leavesExact 8 t = owns (c : Thread nD τ) (st0_8 t) fullShare ((dat0 V c).after 8 t) := by
  have hl : (!(k0_cond2 (grid0.coords t) == 1#1)) = false := by rw [show k0_cond2 (grid0.coords t) = 1#1 from (hcond0_1 t).mpr h1]; rfl
  exact ⟨by unfold Dat.leavesExact; rw [show cfg0.idle 7 (grid0.coords t) = false from hl], by unfold Dat.leavesExact; rw [show cfg0.idle 8 (grid0.coords t) = false from hl]⟩

set_option maxHeartbeats 4800000 in
-- The body at any point: its place in its run of 49 says which accumulators it starts from and whether it stores the messages.
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d))
      ∗ (∃ d, owns (c : Thread nD τ) (st0_3 t) fullShare ((dat0 V c).before 3 t d)) ∗ (∃ d, owns (c : Thread nD τ) (st0_4 t) fullShare ((dat0 V c).before 4 t d)) ∗ (∃ d, owns (c : Thread nD τ) (st0_5 t) fullShare ((dat0 V c).before 5 t d))
      ∗ (∃ d, owns (c : Thread nD τ) (st0_6 t) fullShare ((dat0 V c).before 6 t d)) ∗ (∃ d, owns (c : Thread nD τ) (st0_7 t) fullShare ((dat0 V c).before 7 t d)) ∗ (∃ d, owns (c : Thread nD τ) (st0_8 t) fullShare ((dat0 V c).before 8 t d)))
    ⊢ wp frame (wpE (defs₀ (F := F)) Variants.none c none) Set.univ (bodyAt0 t) (fun _ => iprop((dat0 V c).Φ t.succ ∗ (dat0 V c).owesAt () t.castSucc
      ∗ owns (c : Thread nD τ) (st0_0 t) fullShare (blk0 V c t) ∗ owns (c : Thread nD τ) (st0_1 t) fullShare (blk1 V c t) ∗ owns (c : Thread nD τ) (st0_2 t) fullShare (blk2 V c t) ∗ owns (c : Thread nD τ) (st0_3 t) fullShare (blk3 V c t)
      ∗ owns (c : Thread nD τ) (st0_4 t) fullShare (blk4 V c t) ∗ owns (c : Thread nD τ) (st0_5 t) fullShare (blk5 V c t) ∗ owns (c : Thread nD τ) (st0_6 t) fullShare (blk6 V c t)
      ∗ (dat0 V c).leavesExact 7 t ∗ (dat0 V c).leavesExact 8 t)) := by
  unfold bodyAt0
  obtain ⟨b0, b1, b2, b3, b4, b5, b6⟩ := before0 V c t
  simp only [b0, b1, b2, b3, b4, b5, b6]
  rw [show (dat0 V c).Φ t.succ = PhiS V c (t.val + 1) t.isLt from rfl, PhiS_succ, show (dat0 V c).Φ t.castSucc = PhiS V c t.val (Nat.le_of_lt t.isLt) from rfl]
  have hc : ¬(cond0_0 (grid0.coords t) ∧ cond0_1 (grid0.coords t)) := fun h => by
    have := (hcond0_0 t).mp h.1; have := (hcond0_1 t).mp h.2; omega
  by_cases h0 : t.val % 49 = 0
  · have h1 : ¬t.val % 49 = 48 := by omega
    rw [(leavesIdle0 V c t h1).1, (leavesIdle0 V c t h1).2, acc0_first V c t h0, acc1_first V c t h0]
    refine (sep_mono_left (Phi_out0 V c _ _)).trans ?_
    rw [PhiA0_eq]
    iintro ⟨⟨⟨⟨⟨%e0, HS0⟩, ⟨%e1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0 (grid0.coords t) hc c)
    iframe H0 H1 H2 H3 H4 H5 H6 H7 H8 HS0 HS1
    iintro ⟨H0, H1, H2, H3, H4, H5, H6, H7, H8, HS0, HS1⟩
    simp only [if_pos ((hcond0_0 t).mpr h0), if_neg fun h => h1 ((hcond0_1 t).mp h)]
    iframe HS0 HS1 HR Hg Ho H0 H1 H2 H3 H4 H5 H6
    isplitl [H7]; · iexists _; iexact H7
    iexists _; iexact H8
  have hc0 : ¬cond0_0 (grid0.coords t) := fun h => h0 ((hcond0_0 t).mp h)
  rw [acc0_next V c t h0, acc1_next V c t h0, PhiS_pos V c _ _ fun h => h0 (by rw [h])]
  by_cases h1 : t.val % 49 = 48
  · rw [(leavesLive0 V c t h1).1, (leavesLive0 V c t h1).2, after0_7, after0_8]
    unfold out7 out8
    rw [acc0_next V c t h0, acc1_next V c t h0]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0 (grid0.coords t) hc c)
    iframe H0 H1 H2 H3 H4 H5 H6 H7 H8 HS0 HS1
    iintro ⟨H0, H1, H2, H3, H4, H5, H6, H7, H8, HS0, HS1⟩
    simp only [if_neg hc0, if_pos ((hcond0_1 t).mpr h1)]
    iframe HS0 HS1 HR Hg Ho H0 H1 H2 H3 H4 H5 H6 H7 H8
  · rw [(leavesIdle0 V c t h1).1, (leavesIdle0 V c t h1).2]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0 (grid0.coords t) hc c)
    iframe H0 H1 H2 H3 H4 H5 H6 H7 H8 HS0 HS1
    iintro ⟨H0, H1, H2, H3, H4, H5, H6, H7, H8, HS0, HS1⟩
    simp only [if_neg hc0, if_neg fun h => h1 ((hcond0_1 t).mp h)]
    iframe HS0 HS1 HR Hg Ho H0 H1 H2 H3 H4 H5 H6
    isplitl [H7]; · iexists _; iexact H7
    iexists _; iexact H8

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = Pipeline.ΦA spec0 c from rfl]

theorem hout0 (c : Dev nD) : (dat0 V c).Φ (Fin.last cfg0.N) ⊢ Pipeline.ΦA spec0 c :=
  Phi_out0 V c (Fin.last cfg0.N).val (Nat.le_of_lt_succ (Fin.last cfg0.N).isLt)

end Region

end Cert.KernelIdeal.Hand
end
-- ==== Proof.KI.Reg1.lean ====
import proofs.«423191_j44616120271607_3_alg».proof.Proof.Gen.KernelIdeal.Launch
import proofs.«423191_j44616120271607_3_alg».proof.Proof.Gen.KernelIdeal.Skeleton
import proofs.«423191_j44616120271607_3_alg».proof.Proof.Gen.KernelIdeal.Points
import proofs.«423191_j44616120271607_3_alg».proof.Proof.Gen.KernelIdeal.Loops
import Idealize.ShloMosaic.Lib.Pipeline.FrameBody
import Idealize.ShloMosaic.Lib.Pipeline.Regions
import Idealize.ShloMosaic.Lib.Pipeline.Value
import Idealize.ShloMosaic.Lib.Pipeline.TableIdle
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2_k1 : (![0, 0] : Fin 2 → ℕ) = fun _ => 0 := funext fun a => by fin_cases a <;> rfl

private theorem owns_eq_unread {sp : Space} {sh : Shape} {e : EltTy} {m : Memref sig .tc sp sh e} (h : m.IsWhole) (c : Dev nD) (X : sh.Idx → Elt F e) :
    (owns (c : Thread nD τ) m fullShare X : sProp 𝕄) = (m.view.loc (c : Thread nD τ) ↦[m.view.set]{fullShare} h.unread X) := by
  rw [owns_eq_rep, h.eq_unread (View.read_rep _ _)]

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 250 = 0 :=
  (by decide +kernel : ∀ t : Fin grid1.N, cond1_0 (grid1.coords t) ↔ t.val % 250 = 0)
abbrev cond1_1 (i : grid1.Coords) : Prop := k1_cond2 i = 1#1
theorem hcond1_1 : ∀ t : Fin cfg1.N, cond1_1 (grid1.coords t) ↔ t.val % 250 = 249 :=
  (by decide +kernel : ∀ t : Fin grid1.N, cond1_1 (grid1.coords t) ↔ t.val % 250 = 249)

theorem offAt1_3 : ∀ t : Fin cfg1.N, ¬cond1_1 (grid1.coords t) → cfg1.idle 3 (grid1.coords t) = true ∧ (cfg1.win 3).flush t = false := by decide +kernel
theorem liveAt1_3 : ∀ t : Fin cfg1.N, cond1_1 (grid1.coords t) → cfg1.idle 3 (grid1.coords t) = false := by decide +kernel

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S2000x2 .i32 := win1_0.stage (cfg1.slots t 0)
abbrev ms1_1 (t : Fin cfg1.N) : Memref sig .tc .vmem S2000x128 .bf16 := win1_1.stage (cfg1.slots t 1)
abbrev ms1_2 (t : Fin cfg1.N) : Memref sig .tc .vmem S2000x128 .bf16 := win1_2.stage (cfg1.slots t 2)
abbrev ms1_3 (t : Fin cfg1.N) : Memref sig .tc .vmem S12800x128 .f32 := win1_3.stage (cfg1.slots t 3)
abbrev scM1_k1 : Memref sig .tc .vmem S12800x128 .f32 := Memref.whole cc1_scratch0

abbrev rW1 : Rect S12800x128 := Rect.unit (s := S12800x128) ![0, 0] S12800x128.size inb_S12800x128_S12800x128_0_0

theorem coverW1 (w : Vec F S12800x128 .f32) (y : S12800x128.Idx) :
    ∃ p ∈ ([⟨rW1, w⟩] : List (View.Piece (Elt F) S12800x128 .f32)), y ∈ p.1.set :=
  View.cover_of_tiled [⟨rW1, w⟩] S12800x128.size (by rfl) y

abbrev rest1 (c : Dev nD) (P : sProp 𝕄) : sProp 𝕄 :=
  iprop(iprop(P ∗ Pipeline.scopedRestBut (Ix := Unit) (Name := ℕ) (U := UR sig nD τ) (Lvl := ℕ) (Val := Elt F) spec1 c [cc1_scratch0]) ∗ (∃ r, prngReg c r))

theorem PhiA1_eq (c : Dev nD) :
    (Pipeline.ΦA spec1 c : sProp 𝕄) = rest1 c iprop(∃ d, owns (c : Thread nD τ) scM1_k1 fullShare d) := by
  unfold Pipeline.ΦA; rw [scopedRest1_split]; simp only [scM1_k1, owns_whole]; try rfl

section run

variable (c : Dev nD) (i : grid1.Coords) (arg2 : Memref sig .tc .vmem S2000x2 .i32) (harg2 : arg2.IsWhole) (arg3 : Memref sig .tc .vmem S2000x128 .bf16) (harg3 : arg3.IsWhole) (arg4 : Memref sig .tc .vmem S2000x128 .bf16) (harg4 : arg4.IsWhole) (arg5 : Memref sig .tc .vmem S12800x128 .f32) (harg5 : arg5.IsWhole) (arg6 : Memref sig .tc .vmem S12800x128 .f32) (harg6 : arg6.IsWhole)
  (x0 : Vec F S2000x2 .i32) (x1 : Vec F S2000x128 .bf16) (x2 : Vec F S2000x128 .bf16)

def slabs1 (G : BufTy.Contents (Elt F) arg6.view.ty) : List (View.Piece (Elt F) S12800x128 .f32) :=
  pb_k1_t1 Variants.none c none i arg2 harg2 arg3 harg3 arg4 harg4 arg5 harg5 arg6 harg6
    (View.readAt (Elt F) arg2.view (Rect.unit (s := S2000x2) ![0, 0] S2000x1.size inb_S2000x2_S2000x1_0_0).toLoadRect (harg2.unread x0))
    (View.readAt (Elt F) arg2.view (Rect.unit (s := S2000x2) ![0, 1] S2000x1.size inb_S2000x2_S2000x1_0_1).toLoadRect (harg2.unread x0))
    (View.readAt (Elt F) arg3.view (Rect.unit (s := S2000x128) ![0, 0] S2000x128.size inb_S2000x128_S2000x128_0_0).toLoadRect (harg3.unread x1))
    (View.readAt (Elt F) arg4.view (Rect.unit (s := S2000x128) ![0, 0] S2000x128.size inb_S2000x128_S2000x128_0_0).toLoadRect (harg4.unread x2))
    G (Scf.trips k1_t1_loop.lb k1_t1_loop.ub k1_t1_loop.st)

def loopOut1 (xs : Vec F S12800x128 .f32) : Vec F S12800x128 .f32 :=
  arg6.view.read (Elt F) (arg6.view.writes (Elt F) (harg6.unread xs) (slabs1 c i arg2 harg2 arg3 harg3 arg4 harg4 arg5 harg5 arg6 harg6 x0 x1 x2 (harg6.unread xs)))

-- One point: zeros first at the start of a run, then the loop; at the end of a run the result is also copied to the output block.
theorem kernelRun1 (h : cond1_0 i → ¬cond1_1 i) (d5 xs0 : Vec F S12800x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d5 ∗ owns (c : Thread nD τ) arg6 fullShare xs0
        ∗ (iprop(owns (c : Thread nD τ) arg2 fullShare x0 ∗ owns (c : Thread nD τ) arg3 fullShare x1 ∗ owns (c : Thread nD τ) arg4 fullShare x2
            ∗ owns (c : Thread nD τ) arg5 fullShare (if cond1_1 i then loopOut1 c i arg2 harg2 arg3 harg3 arg4 harg4 arg5 harg5 arg6 harg6 x0 x1 x2 (if cond1_0 i then k1_pay1 (F := F) else xs0) else d5)
            ∗ owns (c : Thread nD τ) arg6 fullShare (loopOut1 c i arg2 harg2 arg3 harg3 arg4 harg4 arg5 harg5 arg6 harg6 x0 x1 x2 (if cond1_0 i then k1_pay1 (F := F) else xs0))) -∗ K ⟨⟩))
      ⊢ wp frame (wpE (defs₀ (F := F)) Variants.none c none) E (cc1__scatter_kernel i arg2 harg2 arg3 harg3 arg4 harg4 arg5 harg5 arg6 harg6) K := by
  simp only [cc1__scatter_kernel_eq_skeleton, owns_eq_unread harg2, owns_eq_unread harg3, owns_eq_unread harg4]; unfold cc1__scatter_kernel_skel owns
  iintro ⟨H0, H1, H2, ⟨%f3, %hf3, H3⟩, ⟨%fs0, %hfs0, HS0⟩, Hk⟩
  obtain rfl := harg6.eq_unread hfs0
  by_cases hc1 : cond1_1 i
  · have hc0 : ¬cond1_0 i := fun h0 => h h0 hc1
    rw [if_neg hc0, if_pos hc1]
    sl_exec (disch := first | exact hc0 | exact hc1)
    sl_step
    iapply Hk
    iframe H0 H1 H2
    isplitl [H3]
    · iexists _; isplitr
      swap; · iexact H3
      ipureintro
      rw [View.read_writes_eq_canon _ _ _ (coverW1 _), View.canon_unit_zero (S := S12800x128) hz2_k1]
      sl_unfold_run_names
      rw [View.readAt_eq_ld, View.ld_unit_zero (S := S12800x128) hz2_k1]
      rfl
    iexists _; isplitr
    swap; · iexact HS0
    ipureintro; rfl
  rw [if_neg hc1]
  by_cases hc0 : cond1_0 i <;> (first | rw [if_pos hc0] | rw [if_neg hc0])
  all_goals
    sl_exec (disch := first | exact hc0 | exact hc1)
    sl_step
    iapply Hk
    iframe H0 H1 H2
    isplitl [H3]
    · iexists _; isplitr; · ipureintro; exact hf3
      iexact H3
    iexists _; isplitr
    swap; · iexact HS0
    ipureintro
  · sl_unfold_run_names
    have hG : arg6.view.writes (Elt F) arg6.view.junk [⟨rW1, k1_pay1 (F := F)⟩] = harg6.unread (k1_pay1 (F := F)) :=
      harg6.eq_unread (by rw [View.read_writes_eq_canon _ _ _ (coverW1 _), View.canon_unit_zero (S := S12800x128) hz2_k1])
    rw [View.writes_append]
    unfold loopOut1 slabs1
    rw [hG]
  · rfl

end run

def stepAt1 (c : Dev nD) (t : Fin cfg1.N) (xs : Vec F S12800x128 .f32) : Vec F S12800x128 .f32 :=
  loopOut1 c (grid1.coords t) (ms1_0 t) (hstage1_0 ((cfg1.slots t 0).cast nbuf1_0)) (ms1_1 t) (hstage1_1 ((cfg1.slots t 1).cast nbuf1_1)) (ms1_2 t) (hstage1_2 ((cfg1.slots t 2).cast nbuf1_2)) (ms1_3 t) (hstage1_3 ((cfg1.slots t 3).cast nbuf1_3)) scM1_k1 (Memref.isWhole_whole _) (iblk1 V c 0 t) (iblk1 V c 1 t) (iblk1 V c 2 t) xs

-- The accumulator after point n: a run of 250 points starts from zeros, every other point from its predecessor.
def sAt1 (c : Dev nD) : (n : ℕ) → n < cfg1.N → Vec F S12800x128 .f32
  | 0, hn => stepAt1 V c ⟨0, hn⟩ (k1_pay1 (F := F))
  | n + 1, hn => stepAt1 V c ⟨n + 1, hn⟩ (if (n + 1) % 250 = 0 then k1_pay1 (F := F) else sAt1 c n (Nat.lt_of_succ_lt hn))

theorem sAt1_A (c : Dev nD) (t : Fin cfg1.N) (h0 : t.val % 250 = 0) :
    sAt1 V c t.val t.isLt = stepAt1 V c t (k1_pay1 (F := F)) := by
  obtain ⟨n, hn⟩ := t
  cases n with
  | zero => rfl
  | succ n => rw [sAt1]; rw [if_pos h0]

theorem sAt1_B (c : Dev nD) (t : Fin cfg1.N) (h0 : ¬t.val % 250 = 0) :
    sAt1 V c t.val t.isLt = stepAt1 V c t (sAt1 V c (t.val - 1) (Nat.lt_of_le_of_lt (Nat.sub_le _ _) t.isLt)) := by
  obtain ⟨n, hn⟩ := t
  cases n with
  | zero => exact absurd (Nat.zero_mod _) h0
  | succ n => rw [sAt1]; rw [if_neg h0]; rfl

def PhiS1 (c : Dev nD) : (n : ℕ) → n ≤ cfg1.N → sProp 𝕄
  | 0, _ => Pipeline.ΦA spec1 c
  | n + 1, hn => rest1 c (owns (c : Thread nD τ) scM1_k1 fullShare (sAt1 V c n hn))

theorem PhiS1_pos (c : Dev nD) (n : ℕ) (h : n ≤ cfg1.N) (hz : n ≠ 0) :
    PhiS1 V c n h = rest1 c (owns (c : Thread nD τ) scM1_k1 fullShare (sAt1 V c (n - 1) (by omega))) := by
  cases n with
  | zero => exact absurd rfl hz
  | succ n => rfl

-- At every position the invariant holds the accumulator at some contents.
theorem PhiS1_any (c : Dev nD) (n : ℕ) (h : n ≤ cfg1.N) :
    PhiS1 V c n h ⊢ rest1 c iprop(∃ d, owns (c : Thread nD τ) scM1_k1 fullShare d) := by
  cases n with
  | zero => exact Entails.of_eq (PhiA1_eq c)
  | succ n =>
    show rest1 c _ ⊢ _
    unfold rest1
    iintro ⟨⟨HS, HR⟩, Hg⟩
    iframe HR Hg
    iexists _; iexact HS

-- Before point t the accumulator holds some xs0 from which the point's result is one step, zeros replacing xs0 at the start of a run.
theorem PhiS1_open (c : Dev nD) (t : Fin cfg1.N) :
    PhiS1 V c t.val (Nat.le_of_lt t.isLt) ⊢ iprop(∃ xs0, ⌜sAt1 V c t.val t.isLt = stepAt1 V c t (if cond1_0 (grid1.coords t) then k1_pay1 (F := F) else xs0)⌝ ∗ rest1 c (owns (c : Thread nD τ) scM1_k1 fullShare xs0)) := by
  by_cases h0 : t.val % 250 = 0
  · refine (PhiS1_any V c _ _).trans ?_
    unfold rest1
    iintro ⟨⟨⟨%d, HS⟩, HR⟩, Hg⟩
    iexists d; isplitr
    · ipureintro; rw [if_pos ((hcond1_0 t).mpr h0)]; exact sAt1_A V c t h0
    iframe
  · rw [PhiS1_pos V c _ _ (fun hz => h0 (by rw [hz]))]
    iintro H
    iexists _; isplitr
    · ipureintro; rw [if_neg (fun h => h0 ((hcond1_0 t).mp h))]; exact sAt1_B V c t h0
    iexact H

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => sAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = sAt1 V c t.val t.isLt := by dsimp only [dat1]

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) := by
  refine ⟨fun d => ?_, fun d => ?_, fun d => ?_⟩ <;>
    exact ((dat1 V c).before_in_eq_fetched _ rfl (fun _ => rfl) (fun _ _ _ => rfl) (fun _ => rfl) t d).trans rfl

theorem leaves1 (c : Dev nD) (t : Fin cfg1.N) :
    (dat1 V c).leavesExact 0 t = owns (c : Thread nD τ) (ms1_0 t) fullShare (iblk1 V c 0 t)
      ∧ (dat1 V c).leavesExact 1 t = owns (c : Thread nD τ) (ms1_1 t) fullShare (iblk1 V c 1 t)
      ∧ (dat1 V c).leavesExact 2 t = owns (c : Thread nD τ) (ms1_2 t) fullShare (iblk1 V c 2 t) :=
  ⟨rfl, rfl, rfl⟩

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [(before1 V c t).1, (before1 V c t).2.1, (before1 V c t).2.2]
  rw [show (dat1 V c).owesAt () t.succ = (dat1 V c).owesAt () t.castSucc from rfl,
    show (dat1 V c).Φ t.succ = rest1 c (owns (c : Thread nD τ) scM1_k1 fullShare (sAt1 V c t.val t.isLt)) from rfl,
    (leaves1 V c t).1, (leaves1 V c t).2.1, (leaves1 V c t).2.2,
    show (dat1 V c).Φ t.castSucc = PhiS1 V c t.val (Nat.le_of_lt t.isLt) from rfl]
  have hne : cond1_0 (grid1.coords t) → ¬cond1_1 (grid1.coords t) := fun h0 h1 => by
    have a := (hcond1_0 t).mp h0; have b := (hcond1_1 t).mp h1; omega
  iintro ⟨HΦ, Ho, ⟨%d0, H0⟩, ⟨%d1, H1⟩, ⟨%d2, H2⟩, ⟨%d3, H3⟩⟩
  icases (PhiS1_open V c t) $$ HΦ with ⟨%xs0, %hx, ⟨HS, HR⟩, Hg⟩
  iapply (kernelRun1 c (grid1.coords t) _ _ _ _ _ _ _ _ _ _ (iblk1 V c 0 t) (iblk1 V c 1 t) (iblk1 V c 2 t) hne ((dat1 V c).before 3 t d3) xs0 Set.univ _)
  iframe H0 H1 H2 H3 HS
  iintro ⟨H0, H1, H2, H3, HS⟩
  rw [hx]; unfold stepAt1 rest1
  iframe H0 H1 H2 HS HR Hg Ho
  by_cases hc1 : cond1_1 (grid1.coords t)
  · rw [show (dat1 V c).leavesExact 3 t = owns (c : Thread nD τ) (ms1_3 t) fullShare ((dat1 V c).after 3 t) from by
      unfold Dat.leavesExact; rw [liveAt1_3 t hc1], after1_3, hx, if_pos hc1]
    unfold stepAt1
    iexact H3
  · rw [Dat.leavesExact_idle (dat1 V c) 3 t (offAt1_3 t hc1).1 (offAt1_3 t hc1).2, if_neg hc1]
    iexists d3; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Entails.of_eq rfl

theorem hout1 (c : Dev nD) : (dat1 V c).Φ (Fin.last cfg1.N) ⊢ Pipeline.ΦA spec1 c := by
  rw [PhiA1_eq]; exact PhiS1_any V c _ (Nat.le_of_lt_succ (Fin.last cfg1.N).isLt)

end Cert.KernelIdeal.Hand

end
-- ==== Proof.KI.Reg2.lean ====
import proofs.«423191_j44616120271607_3_alg».proof.Proof.Gen.KernelIdeal.Launch
import proofs.«423191_j44616120271607_3_alg».proof.Proof.Gen.KernelIdeal.Skeleton
import proofs.«423191_j44616120271607_3_alg».proof.Proof.Gen.KernelIdeal.Points
import proofs.«423191_j44616120271607_3_alg».proof.Proof.Gen.KernelIdeal.Loops
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1

theorem hcond2_0 : ∀ t : Fin cfg2.N, cond2_0 (grid2.coords t) ↔ t.val % 250 = 0 :=
  (by decide +kernel : ∀ t : Fin grid2.N, cond2_0 (grid2.coords t) ↔ t.val % 250 = 0)
theorem hcond2_1 : ∀ t : Fin cfg2.N, cond2_1 (grid2.coords t) ↔ t.val % 250 = 249 :=
  (by decide +kernel : ∀ t : Fin grid2.N, cond2_1 (grid2.coords t) ↔ t.val % 250 = 249)

abbrev rS : Rect S1024 := Rect.unit (s := S1024) ![0] S1024.size inb_S1024_S1024_0
abbrev rH : Rect S2000x2 := Rect.unit (s := S2000x2) ![0, 0] S2000x1.size inb_S2000x2_S2000x1_0_0
abbrev rT : Rect S2000x2 := Rect.unit (s := S2000x2) ![0, 1] S2000x1.size inb_S2000x2_S2000x1_0_1

theorem hz1_k2 : (![0] : Fin 1 → Nat) = fun _ => 0 := funext fun a => by fin_cases a; rfl

def upd (i : grid2.Coords) (x : Vec F S2000x2 .i32) (s : Vec F S1024 .f32) : Vec F S1024 .f32 :=
  k2_pay2 i (View.ld x rH) (View.ld x rT) s

def zero2 : Vec F S1024 .f32 := k2_pay1

theorem cover_rS (p : Vec F S1024 .f32) (L : List (View.Piece (Elt F) S1024 .f32)) (y : S1024.Idx) :
    ∃ pc ∈ ((⟨rS, p⟩ : View.Piece (Elt F) S1024 .f32) :: L), y ∈ pc.1.set :=
  ⟨⟨rS, p⟩, List.Mem.head _, View.mem_set_unit_zero hz1_k2 inb_S1024_S1024_0 y⟩

-- One run of the body: the accumulator restarts from zero where the first test holds and is copied out where the second holds.
theorem run2 (c : Dev nD) (i : grid2.Coords) (arg2 : Memref sig .tc .vmem S2000x2 .i32) (harg2 : arg2.IsWhole)
    (arg3 : Memref sig .tc .vmem S1024 .f32) (harg3 : arg3.IsWhole) (arg4 : Memref sig .tc .vmem S1024 .f32) (harg4 : arg4.IsWhole)
    (hx : cond2_0 i → ¬cond2_1 i) (x0 : Vec F S2000x2 .i32) (xi1 xs : Vec F S1024 .f32) (E : Set ℕ) (K : PUnit → sProp 𝕄) :
    iprop(owns (c : Thread nD τ) arg2 fullShare x0 ∗ owns (c : Thread nD τ) arg3 fullShare xi1 ∗ owns (c : Thread nD τ) arg4 fullShare xs
        ∗ (iprop(owns (c : Thread nD τ) arg2 fullShare x0
            ∗ owns (c : Thread nD τ) arg3 fullShare (if cond2_1 i then upd i x0 (if cond2_0 i then zero2 else xs) else xi1)
            ∗ owns (c : Thread nD τ) arg4 fullShare (upd i x0 (if cond2_0 i then zero2 else xs))) -∗ K ⟨⟩))
      ⊢ wp frame (wpE (defs₀ (F := F)) Variants.none c none) E (cc2__count_kernel i arg2 harg2 arg3 harg3 arg4 harg4) K := by
  simp only [cc2__count_kernel_eq_skeleton]; unfold cc2__count_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg4.eq_unread hfs0
  by_cases hc0 : cond2_0 i <;> by_cases hc1 : cond2_1 i
  · exact absurd hc1 (hx hc0)
  all_goals
    try rw [if_pos hc0]
    try rw [if_neg hc0]
    try rw [if_pos hc1]
    try rw [if_neg hc1]
    sl_exec (disch := first | exact hc0 | exact hc1)
    sl_step
    iapply Hk
    isplitl [H0]
    · iexists _; isplitr; · ipureintro; exact harg2.read_unread _
      iexact H0
    isplitl [H1] <;> (iexists _; isplitr; swap; · first | iexact H1 | iexact HS0)
    all_goals
      ipureintro
      first
      | (try sl_unfold_words
         rw [View.read_writes_eq_canon _ _ _ (cover_rS _ _)]
         first | rw [View.canon_cons_unit_zero hz1_k2] | rw [View.canon_unit_zero hz1_k2]
         simp only [upd, zero2, View.readAt_eq_ld, harg2.read_unread, harg4.read_unread, View.ld_unit_zero (S := S1024) hz1_k2,
           View.readCov_unit_zero (S := S1024) _ hz1_k2]
         try rfl)
      | exact harg3.read_unread _

theorem idleAt2_1 (t : Fin cfg2.N) (h : ¬cond2_1 (grid2.coords t)) : cfg2.idle 1 (grid2.coords t) = true := by
  show (!(k2_cond2 (grid2.coords t) == 1#1)) = true
  rw [beq_false_of_ne h]; rfl
theorem noFlush2_1 (t : Fin cfg2.N) (h : ¬cond2_1 (grid2.coords t)) : (cfg2.win 1).flush t = false :=
  Bool.eq_false_iff.mpr fun hf => h ((hcond2_1 t).mpr ((flush2_1 t).mp hf))
theorem liveAt2_1 (t : Fin cfg2.N) (h : cond2_1 (grid2.coords t)) : cfg2.idle 1 (grid2.coords t) = false := by
  show (!(k2_cond2 (grid2.coords t) == 1#1)) = false
  rw [show k2_cond2 (grid2.coords t) = 1#1 from h]; rfl

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xblk (c : Dev nD) (t : Fin cfg2.N) : Vec F S2000x2 .i32 := iblk2 V c 0 t

def scr (c : Dev nD) : (n : ℕ) → n < cfg2.N → Vec F S1024 .f32
  | 0, h => upd (grid2.coords ⟨0, h⟩) (xblk V c ⟨0, h⟩) zero2
  | n + 1, h =>
    if (n + 1) % 250 = 0 then upd (grid2.coords ⟨n + 1, h⟩) (xblk V c ⟨n + 1, h⟩) zero2
    else upd (grid2.coords ⟨n + 1, h⟩) (xblk V c ⟨n + 1, h⟩) (scr c n (Nat.lt_of_succ_lt h))

theorem scr_first (c : Dev nD) (t : Fin cfg2.N) (h0 : t.val % 250 = 0) :
    scr V c t.val t.isLt = upd (grid2.coords t) (xblk V c t) zero2 := by
  obtain ⟨n, hn⟩ := t
  cases n with
  | zero => rfl
  | succ n => exact if_pos h0

theorem scr_next (c : Dev nD) (t : Fin cfg2.N) (h0 : ¬t.val % 250 = 0) :
    scr V c t.val t.isLt = upd (grid2.coords t) (xblk V c t) (scr V c (t.val - 1) (Nat.lt_of_le_of_lt (Nat.sub_le _ _) t.isLt)) := by
  obtain ⟨n, hn⟩ := t
  cases n with
  | zero => exact absurd (Nat.zero_mod _) h0
  | succ n => exact if_neg h0

abbrev scM2 : Memref sig .tc .vmem S1024 .f32 := Memref.whole cc2_scratch0

theorem PhiA2_eq (c : Dev nD) :
    (Pipeline.ΦA spec2 c : sProp 𝕄)
      = iprop(iprop((∃ d, owns (c : Thread nD τ) scM2 fullShare d)
            ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; try rfl

-- Between points the accumulator holds some contents which, past the first point, are what the point before left.
def PhiS2 (c : Dev nD) (n : ℕ) (h : n ≤ cfg2.N) : sProp 𝕄 :=
  iprop(iprop((∃ d, ⌜∀ hz : n ≠ 0, d = scr V c (n - 1) (by omega)⌝ ∗ owns (c : Thread nD τ) scM2 fullShare d)
      ∗ Pipeline.scopedRestBut (Ix := Unit) (Name := ℕ) (U := UR sig nD τ) (Lvl := ℕ) (Val := Elt F) spec2 c [cc2_scratch0])
    ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => scr V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_1 (c : Dev nD) (t : Fin cfg2.N) : (dat2 V c).after 1 t = scr V c t.val t.isLt := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl

theorem sound_body2 (c : Dev nD) (t : Fin cfg2.N) :
    iprop(PhiS2 V c t.val (Nat.le_of_lt t.isLt) ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d)))
      ⊢ wp frame (wpE (defs₀ (F := F)) Variants.none c none) Set.univ (bodyAt2 t) (fun _ =>
        iprop(PhiS2 V c (t.val + 1) t.isLt ∗ (dat2 V c).owesAt () t.castSucc
          ∗ owns (c : Thread nD τ) (st2_0 t) fullShare (xblk V c t) ∗ (dat2 V c).leavesExact 1 t)) := by
  unfold bodyAt2 PhiS2
  simp only [before2_0]
  have e0 := hcond2_0 t
  have e1 := hcond2_1 t
  iintro ⟨⟨⟨⟨%ds, %hds, HS⟩, Hr⟩, Hg⟩, Ho, ⟨%d0, H0⟩, ⟨%d1, H1⟩⟩
  have hs : scr V c t.val t.isLt = upd (grid2.coords t) (xblk V c t) (if cond2_0 (grid2.coords t) then zero2 else ds) := by
    by_cases h0 : t.val % 250 = 0
    · rw [scr_first V c t h0, if_pos (e0.mpr h0)]
    · rw [scr_next V c t h0, if_neg (mt e0.mp h0), hds fun e => h0 (by rw [e])]
  iapply (run2 c (grid2.coords t) _ _ _ _ _ _ (fun a b => by have := e0.mp a; have := e1.mp b; omega) (xblk V c t)
    ((dat2 V c).before 1 t d1) ds Set.univ _)
  iframe H0 H1 HS
  rw [← hs]
  iintro ⟨H0, H1, HS⟩
  iframe Hr Hg Ho H0
  isplitl [HS]
  · iexists scr V c t.val t.isLt; isplitr; · ipureintro; exact fun _ => rfl
    iexact HS
  by_cases h1 : cond2_1 (grid2.coords t)
  · rw [if_pos h1, show (dat2 V c).leavesExact 1 t = owns (c : Thread nD τ) (st2_1 t) fullShare ((dat2 V c).after 1 t) from by
      unfold Dat.leavesExact; rw [liveAt2_1 t h1], after2_1]
    iexact H1
  · rw [if_neg h1, Dat.leavesExact_idle (dat2 V c) 1 t (idleAt2_1 t h1) (noFlush2_1 t h1)]
    iexists _; iexact H1

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [PhiA2_eq, show (dat2 V c).Φ 0 = PhiS2 V c 0 (Nat.zero_le _) from rfl]; unfold PhiS2
  iintro ⟨⟨⟨%d, HS⟩, Hr⟩, Hg⟩
  iframe Hr Hg
  iexists d; isplitr; · ipureintro; exact fun hz => absurd rfl hz
  iexact HS

theorem hout2 (c : Dev nD) : (dat2 V c).Φ (Fin.last cfg2.N) ⊢ Pipeline.ΦA spec2 c := by
  rw [PhiA2_eq, show (dat2 V c).Φ (Fin.last cfg2.N) = PhiS2 V c cfg2.N (Nat.le_refl _) from rfl]; unfold PhiS2
  iintro ⟨⟨⟨%d, -, HS⟩, Hr⟩, Hg⟩
  iframe Hr Hg
  iexists d; iexact HS

end Cert.KernelIdeal.Hand

end
-- ==== Proof.KI.Reg3.lean ====
import proofs.«423191_j44616120271607_3_alg».proof.Proof.Gen.KernelIdeal.Launch
import proofs.«423191_j44616120271607_3_alg».proof.Proof.Gen.KernelIdeal.Skeleton
import proofs.«423191_j44616120271607_3_alg».proof.Proof.Gen.KernelIdeal.Points
import proofs.«423191_j44616120271607_3_alg».proof.Proof.Gen.KernelIdeal.Loops
import Idealize.ShloMosaic.Lib.Pipeline.FrameBody
import Idealize.ShloMosaic.Lib.Pipeline.Regions
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rM : Rect S1000x128 := Rect.unit (s := S1000x128) ![0, 0] S1000x128.size inb_S1000x128_S1000x128_0_0
abbrev rC : Rect S1000x1 := Rect.unit (s := S1000x1) ![0, 0] S1000x1.size inb_S1000x1_S1000x1_0_0
abbrev rL : Rect S128 := Rect.unit (s := S128) ![0] S128.size inb_S128_S128_0

def out3_5 (x0 : Vec F S1000x128 .f32) (x1 : Vec F S1000x1 .f32) (x2 : Vec F S1000x128 .f32) (x3 : Vec F S128 .f32) (x4 : Vec F S128 .f32) :
    Vec F S1000x128 .f32 :=
  View.canon [⟨rM, k3_pay1 (View.ld x0 rM) (View.ld x1 rC) (View.ld x2 rM) (View.ld x3 rL) (View.ld x4 rL)⟩]

theorem cover3_5 (p0 : Vec F S1000x128 .f32) (y : S1000x128.Idx) :
    ∃ pc ∈ ([⟨rM, p0⟩] : List (View.Piece (Elt F) S1000x128 .f32)), y ∈ pc.1.set :=
  View.cover_of_tiled [⟨rM, p0⟩] S1000x128.size (by rfl) y

theorem sound_kernel3 (c : Dev nD) (E : Set ℕ) (i : grid3.Coords)
    (arg1 : Memref sig .tc .vmem S1000x128 .f32) (harg1 : arg1.IsWhole) (arg2 : Memref sig .tc .vmem S1000x1 .f32) (harg2 : arg2.IsWhole)
    (arg3 : Memref sig .tc .vmem S1000x128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S1000x128 .f32) (harg6 : arg6.IsWhole)
    (x0 : Vec F S1000x128 .f32) (x1 : Vec F S1000x1 .f32) (x2 : Vec F S1000x128 .f32) (x3 : Vec F S128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__final_kernel i arg1 harg1 arg2 harg2 arg3 harg3 arg4 harg4 arg5 harg5 arg6 harg6) K := by
  simp only [cc3__final_kernel_eq_skeleton]; unfold cc3__final_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]; swap; isplitl [H1]; swap; isplitl [H2]; swap; isplitl [H3]; swap; isplitl [H4]; swap
  · iexists _; isplitr; swap; · iexact H5
    ipureintro; exact View.read_writes_eq_canon _ _ _ (cover3_5 _)
  all_goals
    iexists _; isplitr; · ipureintro; rfl
    iassumption

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem after3 (c : Dev nD) (t : Fin cfg3.N) :
    (dat3 V c).after 0 t = iblk3 V c 0 t ∧ (dat3 V c).after 1 t = iblk3 V c 1 t ∧ (dat3 V c).after 2 t = iblk3 V c 2 t
      ∧ (dat3 V c).after 3 t = iblk3 V c 3 t ∧ (dat3 V c).after 4 t = iblk3 V c 4 t := by
  refine ⟨?_, ?_, ?_, ?_, ?_⟩ <;> dsimp only [dat3]

theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t)
      ∧ (∀ d, (dat3 V c).before 4 t d = iblk3 V c 4 t) := by
  refine ⟨?_, ?_, ?_, ?_, ?_⟩ <;> exact fun d =>
    ((dat3 V c).before_in_eq_fetched _ (by rfl) (fun _ => by rfl) (fun _ _ _ => by rfl) (fun _ => by rfl) t d).trans (by rfl)

theorem sound_body3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d))
        ∗ (∃ d, owns (c : Thread nD τ) (st3_3 t) fullShare ((dat3 V c).before 3 t d))
        ∗ (∃ d, owns (c : Thread nD τ) (st3_4 t) fullShare ((dat3 V c).before 4 t d))
        ∗ (∃ d, owns (c : Thread nD τ) (st3_5 t) fullShare ((dat3 V c).before 5 t d)))
      ⊢ wp frame (wpE (defs₀ (F := F)) Variants.none c none) Set.univ (bodyAt3 t) (fun _ =>
        iprop((dat3 V c).Φ t.castSucc ∗ (dat3 V c).owesAt () t.castSucc
          ∗ owns (c : Thread nD τ) (st3_0 t) fullShare ((dat3 V c).after 0 t)
          ∗ owns (c : Thread nD τ) (st3_1 t) fullShare ((dat3 V c).after 1 t)
          ∗ owns (c : Thread nD τ) (st3_2 t) fullShare ((dat3 V c).after 2 t)
          ∗ owns (c : Thread nD τ) (st3_3 t) fullShare ((dat3 V c).after 3 t)
          ∗ owns (c : Thread nD τ) (st3_4 t) fullShare ((dat3 V c).after 4 t)
          ∗ owns (c : Thread nD τ) (st3_5 t) fullShare ((dat3 V c).after 5 t))) := by
  unfold bodyAt3
  have hb := before3 V c t
  have ha := after3 V c t
  simp only [hb.1, hb.2.1, hb.2.2.1, hb.2.2.2.1, hb.2.2.2.2, ha.1, ha.2.1, ha.2.2.1, ha.2.2.2.1, ha.2.2.2.2, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end Cert.KernelIdeal.Hand

end
-- ==== Proof.KI.Halves.lean ====
import proofs.«423191_j44616120271607_3_alg».proof.Proof.KI.Launch
import proofs.«423191_j44616120271607_3_alg».proof.Proof.KI.Reg0
import proofs.«423191_j44616120271607_3_alg».proof.Proof.KI.Reg1
import proofs.«423191_j44616120271607_3_alg».proof.Proof.KI.Reg2
import proofs.«423191_j44616120271607_3_alg».proof.Proof.KI.Reg3

noncomputable section

namespace Cert.KernelIdeal.Hand

open Cert.KernelIdeal Cert.KernelIdeal.Gen Idealize.ShloMosaic Idealize.ShloMosaic.TcCoe

variable {F : FTy → Type} [FloatOps F]

def half0 : Half0 (F := F) := ⟨dat0, A_eq0, fun _ _ _ => rfl, fun _ _ _ => rfl, fun _ _ _ => rfl, body_obligation0, hin0, hout0⟩
def half1 : Half1 (F := F) := ⟨dat1, A_eq1, fun _ _ _ => rfl, fun _ _ _ => rfl, fun _ _ _ => rfl, body_obligation1, hin1, hout1⟩
def half2 : Half2 (F := F) := ⟨dat2, A_eq2, fun _ _ _ => rfl, fun _ _ _ => rfl, fun _ _ _ => rfl, body_obligation2, hin2, hout2⟩
def half3 : Half3 (F := F) := ⟨dat3, A_eq3, fun _ _ _ => rfl, fun _ _ _ => rfl, fun _ _ _ => rfl, body_obligation3, hin3, hout3⟩

end Cert.KernelIdeal.Hand

end
-- ==== Proof.Spec.lean ====
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

def oh (a : BitVec 32) (v : ℕ) : EReal := if a = BitVec.ofNat 32 v then 1 else 0

abbrev prow (n : Fin 49) (j : Fin 1024) : Fin 50176 := ⟨1024 * n.val + j.val, by have := n.isLt; have := j.isLt; omega⟩

abbrev edge (b : Fin 250) (r : Fin 2000) : Fin 500000 := ⟨2000 * b.val + r.val, by have := b.isLt; have := r.isLt; omega⟩

section Kernel

variable (ht : (⟨2, ![500000, 2]⟩ : Shape).Idx → BitVec 32) (Hp : (⟨2, ![50176, 128]⟩ : Shape).Idx → EReal)
  (E : (⟨2, ![500000, 128]⟩ : Shape).Idx → EReal)

def InRange : Prop :=
  ∀ (e : Fin 500000) (k : Fin 2), 0 ≤ (ht (ix2 e k)).toInt ∧ (ht (ix2 e k)).toInt < 50000

def gath (col : Fin 2) (e : Fin 500000) (k : Fin 128) : EReal :=
  ∑ n : Fin 49, ∑ j : Fin 1024, oh (ht (ix2 e col)) (1024 * n.val + j.val) * Hp (ix2 (prow n j) k)

def cat (col : Fin 2) (e : Fin 500000) (k : Fin 256) : EReal :=
  if h : k.val < 128 then gath ht Hp col e ⟨k.val, h⟩ else E (ix2 e ⟨k.val - 128, by have := k.isLt; omega⟩)

def msg (W : (⟨2, ![256, 128]⟩ : Shape).Idx → EReal) (b : (⟨1, ![128]⟩ : Shape).Idx → EReal) (col : Fin 2) :
    (⟨2, ![500000, 128]⟩ : Shape).Idx → EReal :=
  fun i => (∑ k : Fin 256, cat ht Hp E col (i 0) k * W (ix2 k (i 1))) + b (ix1 (i 1))

def agg (mf mb : (⟨2, ![500000, 128]⟩ : Shape).Idx → EReal) : (⟨2, ![51200, 128]⟩ : Shape).Idx → EReal :=
  fun i => ∑ b : Fin 250,
    ((∑ r : Fin 2000, oh (ht (ix2 (edge b r) 1)) (i 0).val * mf (ix2 (edge b r) (i 1)))
      + (∑ r : Fin 2000, oh (ht (ix2 (edge b r) 0)) (i 0).val * mb (ix2 (edge b r) (i 1))))

def cnt : (⟨1, ![50176]⟩ : Shape).Idx → EReal :=
  fun i => ∑ b : Fin 250,
    ((∑ r : Fin 2000, oh (ht (ix2 (edge b r) 0)) (i 0).val) + (∑ r : Fin 2000, oh (ht (ix2 (edge b r) 1)) (i 0).val))

end Kernel

def eps7 : EReal := Ideal.ofBits .f32 0x33D6BF95#32
def eps5 : EReal := Ideal.ofBits .f32 0x3727C5AC#32
def slope : EReal := Ideal.ofBits .f32 0x3C23D70A#32
def n128 : EReal := Ideal.ofBits .f32 0x43000000#32
def zero32 : EReal := Ideal.ofBits .f32 0x00000000#32

def act (a : EReal) : EReal := Scalar.select (Ideal.cmp .oge a zero32) a (slope * a)

section Last

variable (S : (⟨2, ![50000, 128]⟩ : Shape).Idx → EReal) (C : (⟨2, ![50000, 1]⟩ : Shape).Idx → EReal)
  (H : (⟨2, ![50000, 128]⟩ : Shape).Idx → EReal)

def pre (v : Fin 50000) (d : Fin 128) : EReal :=
  act (Ideal.div (S (ix2 v d)) (C (ix2 v (0 : Fin 1)) + eps7)) + H (ix2 v d)

def mu (v : Fin 50000) : EReal :=
  Ideal.div (∑ d : Fin 128, pre S C H v d) n128

def var (v : Fin 50000) : EReal :=
  Ideal.div (∑ d : Fin 128, (pre S C H v d - mu S C H v) * (pre S C H v d - mu S C H v)) n128

def fin (g b : (⟨1, ![128]⟩ : Shape).Idx → EReal) : (⟨2, ![50000, 128]⟩ : Shape).Idx → EReal :=
  fun i => (g (ix1 (i 1)) * (pre S C H (i 0) (i 1) - mu S C H (i 0))) * Ideal.rsqrt (var S C H (i 0) + eps5) + b (ix1 (i 1))

def Hpad : (⟨2, ![50176, 128]⟩ : Shape).Idx → EReal :=
  fun i => if h : (i 0).val < 50000 then H (ix2 ⟨(i 0).val, h⟩ (i 1)) else 0

end Last

def aggS (A : (⟨2, ![51200, 128]⟩ : Shape).Idx → EReal) : (⟨2, ![50000, 128]⟩ : Shape).Idx → EReal :=
  fun i => A (ix2 ⟨(i 0).val, by have := idx2_lt0 i; omega⟩ (i 1))

def cntS (C : (⟨1, ![50176]⟩ : Shape).Idx → EReal) : (⟨2, ![50000, 1]⟩ : Shape).Idx → EReal :=
  fun i => C (ix1 ⟨(i 0).val, by have := idx2_lt0 i; omega⟩)

def grow (a : BitVec 32) : Fin 50000 :=
  ⟨min (if a.toInt < 0 then a + 50000#32 else a).toInt.toNat 49999, by omega⟩

section Reference

variable (ht : (⟨2, ![500000, 2]⟩ : Shape).Idx → BitVec 32)

def refMsg (H : (⟨2, ![50000, 128]⟩ : Shape).Idx → EReal)
    (E : (⟨2, ![500000, 128]⟩ : Shape).Idx → EReal) (W : (⟨2, ![256, 128]⟩ : Shape).Idx → EReal)
    (b : (⟨1, ![128]⟩ : Shape).Idx → EReal) (col : Fin 2) : (⟨2, ![500000, 128]⟩ : Shape).Idx → EReal :=
  fun i => (∑ k : Fin 256, (if h : k.val < 128 then H (ix2 (grow (ht (ix2 (i 0) col))) ⟨k.val, h⟩)
      else E (ix2 (i 0) ⟨k.val - 128, by have := k.isLt; omega⟩)) * W (ix2 k (i 1))) + b (ix1 (i 1))

def dst (j : Fin 1000000) : BitVec 32 :=
  if h : j.val < 500000 then ht (ix2 ⟨j.val, h⟩ 1) else ht (ix2 ⟨j.val - 500000, by have := j.isLt; omega⟩ 0)

def stk (mf mb : (⟨2, ![500000, 128]⟩ : Shape).Idx → EReal) (j : Fin 1000000) (d : Fin 128) : EReal :=
  if h : j.val < 500000 then mf (ix2 ⟨j.val, h⟩ d) else mb (ix2 ⟨j.val - 500000, by have := j.isLt; omega⟩ d)

def refAgg (mf mb : (⟨2, ![500000, 128]⟩ : Shape).Idx → EReal) : (⟨2, ![50000, 128]⟩ : Shape).Idx → EReal :=
  fun i => zero32 + ∑ j : Fin 1000000, if (dst ht j).toInt = ((i 0).val : ℤ) then stk mf mb j (i 1) else 0

def refCnt : (⟨2, ![50000, 1]⟩ : Shape).Idx → EReal :=
  fun i => zero32 + ∑ j : Fin 1000000, if (dst ht j).toInt = ((i 0).val : ℤ) then Ideal.ofBits .f32 0x3F800000#32 else 0

end Reference

section Results

variable (H : (⟨2, ![50000, 128]⟩ : Shape).Idx → EReal) (E : (⟨2, ![500000, 128]⟩ : Shape).Idx → EReal)
    (ht : (⟨2, ![500000, 2]⟩ : Shape).Idx → BitVec 32) (Wf : (⟨2, ![256, 128]⟩ : Shape).Idx → EReal)
    (bf : (⟨1, ![128]⟩ : Shape).Idx → EReal) (Wb : (⟨2, ![256, 128]⟩ : Shape).Idx → EReal)
    (bb g b : (⟨1, ![128]⟩ : Shape).Idx → EReal)

def kernelOut : (⟨2, ![50000, 128]⟩ : Shape).Idx → EReal :=
  fin (aggS (agg ht (msg ht (Hpad H) E Wf bf 0) (msg ht (Hpad H) E Wb bb 1))) (cntS (cnt ht)) H g b

def refOut : (⟨2, ![50000, 128]⟩ : Shape).Idx → EReal :=
  fin (refAgg ht (refMsg ht H E Wf bf 0) (refMsg ht H E Wb bb 1)) (refCnt ht) H g b

end Results

end Cert.Spec

end
-- ==== Proof.KI.Val0Pay.lean ====
import proofs.«423191_j44616120271607_3_alg».proof.Proof.Gen.KernelIdeal.Skeleton
import proofs.«423191_j44616120271607_3_alg».proof.Proof.Spec
import Idealize.ShloMosaic.Lib.ValueLayout
import Idealize.ShloMosaic.Lib.StackMember

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx

-- The compared word of chunk `i 1`, lane `j`: 1024 (i 1) + j, since words add and multiply as the naturals do.
theorem pay8_apply (i : grid0.Coords) (u : Fin 1) (j : Fin 1024) :
    k0_pay8 i (ix2 u j) = BitVec.ofNat 32 (1024 * (i 1).val + j.val) := by
  unfold k0_pay8
  show BitVec.ofNat 32 (i 1).val * BitVec.ofNat 32 1024 + iota .tc S1x1024 32 [1] iota_S1x1024_d1_w32 (ix2 u j) = _
  rw [iota_single_apply, Nat.mul_comm 1024, BitVec.ofNat_add, BitVec.ofNat_mul]

-- The converted comparison of two words is the indicator of their equality.
theorem onehot_word (a b : BitVec 32) :
    (FloatOps.sitofp (F := Ideal) .f32 ((IntOp.cmpi .eq a b).setWidth 32) : EReal) = if a = b then 1 else 0 := by
  show ((((BitVec.ofBool (a == b)).setWidth 32).toInt : ℝ) : EReal) = _
  by_cases h : a = b
  · simp [h]
  · rw [if_neg h, show (a == b) = false by simpa using h]
    simp

theorem castSame_apply {α : Type} {s : Shape} (x : s.Idx → α) (h : s.ShapeCasts s) (j : s.Idx) : shapeCast s x h j = x j :=
  shapeCast_apply x h j j rfl

-- A column `[a, 1]` broadcast to `[a, b]` reads, at `(p, q)`, the column's entry of row `p`.
theorem bcastCol_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

-- A plain `[m, k] × [k, n]` product added to zero, at an entry: the sum over the contraction index.
theorem plainDot_apply {m k n : ℕ} (L : FVec Ideal ⟨2, ![m, k]⟩ .bf16) (R : FVec Ideal ⟨2, ![k, n]⟩ .bf16) (r : Fin m) (d : Fin n) :
    matmul (DotDims.plain m k n) none L R (constant (F := Ideal) ⟨2, ![m, n]⟩ .f32 0x00000000#32) (ix2 r d)
      = ∑ j : Fin k, L (ix2 r j) * R (ix2 j d) :=
  (Ideal.matmul_constant_zero_apply _ none L R _).trans
    ((Ideal.dotGeneral_apply _ none _ L R _).symm.trans (StackMember.dotGeneral_plain_apply none L R r d))

-- An accumulator's update at an entry: what it held plus the chunk's part of the gather sum.
theorem pay10_apply (i : grid0.Coords) (v6 : Vec Ideal S1024x128 .bf16) (v13 : Vec Ideal S2000x1 .i32) (v32 : Vec Ideal S2000x128 .f32)
    (r : Fin 2000) (d : Fin 128) :
    k0_pay1 (k0_pay10 i v6 v13 v32) (ix2 r d)
      = v32 (ix2 r d) + ∑ j : Fin 1024, Cert.Spec.oh (v13 (ix2 r (0 : Fin 1))) (1024 * (i 1).val + j.val) * v6 (ix2 j d) := by
  unfold k0_pay1 k0_pay10 k0_pay7
  rw [castSame_apply, addf_apply]
  refine congrArg (fun s : EReal => v32 (ix2 r d) + s)
    ((plainDot_apply (m := 2000) (k := 1024) (n := 128) _ _ r d).trans (Finset.sum_congr rfl fun j _ => ?_))
  rw [castSame_apply]
  refine congrArg (fun s : EReal => s * v6 (ix2 j d)) ?_
  show FloatOps.sitofp (F := Ideal) .f32 ((IntOp.cmpi .eq (broadcastTo S2000x1024 v13 broadcasts_S2000x1_S2000x1024 (ix2 r j))
      (broadcastTo S2000x1024 (k0_pay8 i) broadcasts_S1x1024_S2000x1024 (ix2 r j))).setWidth 32) = _
  rw [onehot_word, bcastCol_apply, broadcastTo_1b_ab_apply, pay8_apply]
  rfl

-- The other accumulator's update is the same term.
theorem pay9_apply (i : grid0.Coords) (v6 : Vec Ideal S1024x128 .bf16) (v12 : Vec Ideal S2000x1 .i32) (v26 : Vec Ideal S2000x128 .f32)
    (r : Fin 2000) (d : Fin 128) :
    k0_pay9 i v6 v12 v26 (ix2 r d)
      = v26 (ix2 r d) + ∑ j : Fin 1024, Cert.Spec.oh (v12 (ix2 r (0 : Fin 1))) (1024 * (i 1).val + j.val) * v6 (ix2 j d) :=
  pay10_apply i v6 v12 v26 r d

theorem pay5_apply (y : S2000x128.Idx) : k0_pay5 (F := Ideal) y = 0 := by
  unfold k0_pay5
  rw [castSame_apply]
  exact Ideal.ofBits_zero_f32
theorem pay6_apply (y : S2000x128.Idx) : k0_pay6 (F := Ideal) y = 0 := pay5_apply y

-- Two `[2000, 128]` blocks joined along the lanes: the left one below lane 128, the right one from there.
theorem concat_entry (A B : FVec Ideal S2000x128 .bf16) (r : Fin 2000) (k : Fin 256) :
    concatenate S2000x256 1 [⟨S2000x128, A⟩, ⟨S2000x128, B⟩] concatenates_S2000x128_S2000x128_S2000x256_d1 (ix2 r k)
      = if h : k.val < 128 then A (ix2 r ⟨k.val, h⟩) else B (ix2 r ⟨k.val - 128, by have := k.isLt; omega⟩) := by
  by_cases h : k.val < 128
  · rw [dif_pos h]
    exact concatenate_pair_apply_left (1 : Fin 2) A B concatenates_S2000x128_S2000x128_S2000x256_d1 (ix2 r k) rfl (ix2 r ⟨k.val, h⟩)
      (fun b => match b with | ⟨0, _⟩ => rfl | ⟨1, _⟩ => rfl)
  · rw [dif_neg h]
    exact concatenate_pair_apply_right (1 : Fin 2) A B concatenates_S2000x128_S2000x128_S2000x256_d1 (ix2 r k) rfl rfl
      (ix2 r ⟨k.val - 128, by have := k.isLt; omega⟩)
      (fun b hb => match b with | ⟨0, _⟩ => rfl | ⟨1, _⟩ => absurd rfl hb)
      (by show k.val - 128 + 128 = k.val; omega)

-- A stored message at an entry: the affine image of the row [accumulated | edge features].
theorem pay3_apply (v41 : Vec Ideal S2000x128 .bf16) (v43 : Vec Ideal S2000x128 .f32) (v49 : Vec Ideal S256x128 .f32) (v54 : Vec Ideal S128 .f32)
    (r : Fin 2000) (d : Fin 128) :
    k0_pay3 v41 v43 v49 v54 (ix2 r d)
      = (∑ k : Fin 256, (if h : k.val < 128 then v43 (ix2 r ⟨k.val, h⟩) else v41 (ix2 r ⟨k.val - 128, by have := k.isLt; omega⟩))
          * v49 (ix2 k d)) + v54 (ix1 d) := by
  unfold k0_pay3 k0_pay2
  rw [truncf_apply, addf_apply, broadcastTo_1b_ab_apply, shapeCast_a_1a_apply]
  refine congrArg (fun s : EReal => s + v54 (ix1 d))
    ((plainDot_apply (m := 2000) (k := 256) (n := 128) _ _ r d).trans (Finset.sum_congr rfl fun k _ => ?_))
  rw [concat_entry, truncf_apply]
  refine congrArg (fun s : EReal => s * v49 (ix2 k d)) ?_
  by_cases h : k.val < 128
  · rw [dif_pos h, dif_pos h, truncf_apply]
  · rw [dif_neg h, dif_neg h, castSame_apply]

-- The other message is the same term.
theorem pay4_apply (v41 : Vec Ideal S2000x128 .bf16) (v46 : Vec Ideal S2000x128 .f32) (v51 : Vec Ideal S256x128 .f32) (v59 : Vec Ideal S128 .f32)
    (r : Fin 2000) (d : Fin 128) :
    k0_pay4 v41 v46 v51 v59 (ix2 r d)
      = (∑ k : Fin 256, (if h : k.val < 128 then v46 (ix2 r ⟨k.val, h⟩) else v41 (ix2 r ⟨k.val - 128, by have := k.isLt; omega⟩))
          * v51 (ix2 k d)) + v59 (ix1 d) :=
  pay3_apply v41 v46 v51 v59 r d

end Cert.KernelIdeal.Hand

end
-- ==== Proof.KI.Val0Grid.lean ====
import proofs.«423191_j44616120271607_3_alg».proof.Proof.Gen.KernelIdeal.Launch

noncomputable section

namespace Cert.KernelIdeal.Hand

open Cert.KernelIdeal Cert.KernelIdeal.Gen
open Idealize.ShloMosaic Idealize.ShloMosaic.TcCoe Idealize.SL.Sem

namespace Val0

-- Point `t` of the grid is chunk `t % 49` of run `t / 49`.
def eOf (t : Fin cfg0.N) : Fin 250 := ⟨t.val / 49, by have := lt_of_lt_of_eq t.isLt N_0; omega⟩
def nOf (t : Fin cfg0.N) : Fin 49 := ⟨t.val % 49, Nat.mod_lt _ (by omega)⟩

theorem coord_facts0 : ∀ t : Fin cfg0.N,
    (grid0.coords t (1 : Fin 2)).val = t.val % 49
    ∧ k0_off1 (grid0.coords t) (0 : Fin 2) = 1024 * (t.val % 49) ∧ k0_off1 (grid0.coords t) (1 : Fin 2) = 0 :=
  (by decide +kernel : ∀ t : Fin grid0.N, _)

theorem idx_facts0 : ∀ t : Fin cfg0.N,
    win0_0.index t (0 : Fin 2) = t.val / 49 ∧ win0_0.index t (1 : Fin 2) = 0
    ∧ win0_1.index t (0 : Fin 2) = 0 ∧ win0_1.index t (1 : Fin 2) = 0
    ∧ win0_2.index t (0 : Fin 2) = t.val / 49 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val / 49 ∧ win0_7.index t (1 : Fin 2) = 0
    ∧ win0_8.index t (0 : Fin 2) = t.val / 49 ∧ win0_8.index t (1 : Fin 2) = 0 :=
  (by decide +kernel : ∀ t : Fin grid0.N, _)

end Val0

end Cert.KernelIdeal.Hand

end
-- ==== Proof.KI.Val0.lean ====
import proofs.«423191_j44616120271607_3_alg».proof.Proof.KI.Reg0
import proofs.«423191_j44616120271607_3_alg».proof.Proof.KI.Val0Pay
import proofs.«423191_j44616120271607_3_alg».proof.Proof.KI.Val0Grid

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Cert.Spec (oh prow edge gath cat msg)

namespace Val0

-- A rank-two index is its two coordinates.
theorem ix2_of {m n : ℕ} {x : (⟨2, ![m, n]⟩ : Shape).Idx} {p : Fin m} {q : Fin n} (h0 : (x 0).val = p.val) (h1 : (x 1).val = q.val) :
    x = ix2 p q :=
  funext fun a => Fin.ext (match a with | ⟨0, _⟩ => h0 | ⟨1, _⟩ => h1)

section Reads
variable (V : (c : Dev nD) → (b : Ref sig .tc) → Buf (Elt Ideal) ((c : Thread nD τ).loc b)) (c : Dev nD) (t : Fin cfg0.N)

-- Entry `(r, k)` of the block of point `t` is entry `(2000 (t / 49) + r, k)` of the edge arrays; the other blocks are the whole arrays.
theorem blk0_apply (r : Fin 2000) (col : Fin 2) : blk0 V c t (ix2 r col) = V c main_arg2 (ix2 (edge (eOf t) r) col) := by
  have := idx_facts0 t
  exact congrArg (V c main_arg2) (ix2_of (by show win0_0.index t 0 * 2000 + 1 * r.val = 2000 * (t.val / 49) + r.val; omega)
    (by show win0_0.index t 1 * 2 + 1 * col.val = col.val; omega))
theorem blk1_apply (p : Fin 50176) (k : Fin 128) : blk1 V c t (ix2 p k) = V c main_v1 (ix2 p k) := by
  have := idx_facts0 t
  exact congrArg (V c main_v1) (ix2_of (by show win0_1.index t 0 * 50176 + 1 * p.val = p.val; omega)
    (by show win0_1.index t 1 * 128 + 1 * k.val = k.val; omega))
theorem blk2_apply (r : Fin 2000) (k : Fin 128) : blk2 V c t (ix2 r k) = V c main_v2 (ix2 (edge (eOf t) r) k) := by
  have := idx_facts0 t
  exact congrArg (V c main_v2) (ix2_of (by show win0_2.index t 0 * 2000 + 1 * r.val = 2000 * (t.val / 49) + r.val; omega)
    (by show win0_2.index t 1 * 128 + 1 * k.val = k.val; omega))
theorem blk3_apply (k : Fin 256) (d : Fin 128) : blk3 V c t (ix2 k d) = V c main_arg3 (ix2 k d) := by
  have := idx_facts0 t
  exact congrArg (V c main_arg3) (ix2_of (by show win0_3.index t 0 * 256 + 1 * k.val = k.val; omega)
    (by show win0_3.index t 1 * 128 + 1 * d.val = d.val; omega))
theorem blk5_apply (k : Fin 256) (d : Fin 128) : blk5 V c t (ix2 k d) = V c main_arg5 (ix2 k d) := by
  have := idx_facts0 t
  exact congrArg (V c main_arg5) (ix2_of (by show win0_5.index t 0 * 256 + 1 * k.val = k.val; omega)
    (by show win0_5.index t 1 * 128 + 1 * d.val = d.val; omega))
theorem blk4_apply (d : Fin 128) : blk4 V c t (ix1 d) = V c main_arg4 (ix1 d) := by
  have := idx_facts0 t
  exact congrArg (V c main_arg4) (funext fun a => Fin.ext (match a with
    | ⟨0, _⟩ => by show win0_4.index t 0 * 128 + 1 * d.val = d.val; omega))
theorem blk6_apply (d : Fin 128) : blk6 V c t (ix1 d) = V c main_arg6 (ix1 d) := by
  have := idx_facts0 t
  exact congrArg (V c main_arg6) (funext fun a => Fin.ext (match a with
    | ⟨0, _⟩ => by show win0_6.index t 0 * 128 + 1 * d.val = d.val; omega))

-- Column `col` of the index pairs, read through its rectangle.
theorem ld_col (col : Fin 2) (inb) (x0 : Vec Ideal S2000x2 .i32) (r : Fin 2000) (u : Fin 1) :
    View.ld x0 (Rect.unit (s := S2000x2) ![0, col.val] S2000x1.size inb) (ix2 r u) = x0 (ix2 r col) :=
  congrArg x0 (ix2_of (by show 0 + 1 * r.val = r.val; omega) (by show col.val + 1 * u.val = col.val; omega))

-- Row `j` of the table chunk of point `t` is row `1024 (t % 49) + j` of the table.
theorem ld_tab (x1 : Vec Ideal S50176x128 .bf16) (j : Fin 1024) (k : Fin 128) :
    View.ld x1 (rTab (grid0.coords t)) (ix2 j k) = x1 (ix2 (prow (nOf t) j) k) := by
  have := coord_facts0 t
  exact congrArg x1 (ix2_of (by show k0_off1 (grid0.coords t) 0 + 1 * j.val = 1024 * (t.val % 49) + j.val; omega)
    (by show k0_off1 (grid0.coords t) 1 + 1 * k.val = k.val; omega))

end Reads

-- Chunk `s`'s part of the gather sum: the one-hot product against the chunk's 1024 rows.
def chunkSum (ht : (⟨2, ![500000, 2]⟩ : Shape).Idx → BitVec 32) (Hp : (⟨2, ![50176, 128]⟩ : Shape).Idx → EReal)
    (col : Fin 2) (e : Fin 500000) (k : Fin 128) (s : ℕ) : EReal :=
  if h : s < 49 then ∑ j : Fin 1024, oh (ht (ix2 e col)) (1024 * s + j.val) * Hp (ix2 (prow ⟨s, h⟩ j) k) else 0

section Run
variable (V : (c : Dev nD) → (b : Ref sig .tc) → Buf (Elt Ideal) ((c : Thread nD τ).loc b)) (c : Dev nD)

-- One point's update of the accumulator that reads index column `col`: it adds the chunk's part to each entry.
abbrev upd0 (t : Fin cfg0.N) (col : Fin 2) (inb : ∀ a, ![0, col.val] a + S2000x1.size a ≤ S2000x2.size a) (a : Vec Ideal S2000x128 .f32) : Vec Ideal S2000x128 .f32 :=
  k0_pay9 (grid0.coords t) (View.ld (blk1 V c t) (rTab (grid0.coords t)))
    (View.ld (blk0 V c t) (Rect.unit (s := S2000x2) ![0, col.val] S2000x1.size inb)) a
theorem step_apply (t : Fin cfg0.N) (col : Fin 2) (inb) (a : Vec Ideal S2000x128 .f32) (r : Fin 2000) (k : Fin 128) :
    upd0 V c t col inb a (ix2 r k) = a (ix2 r k) + chunkSum (V c main_arg2) (V c main_v1) col (edge (eOf t) r) k (t.val % 49) := by
  obtain ⟨hc, -, -⟩ := coord_facts0 t
  unfold upd0 chunkSum
  rw [pay9_apply, dif_pos (Nat.mod_lt _ (by omega))]
  refine congrArg (fun s : EReal => a (ix2 r k) + s) (Finset.sum_congr rfl fun j _ => ?_)
  rw [ld_col, blk0_apply, ld_tab, blk1_apply, hc]
  rfl

-- Zero at the start of each run of 49 points and one step per point: at a run's last point, the gathered rows of the run's edges.
theorem acc_last (col : Fin 2) (inb) (z : Vec Ideal S2000x128 .f32) (acc : (n : ℕ) → n < cfg0.N → Vec Ideal S2000x128 .f32)
    (hz : ∀ y, z y = 0) (hf : ∀ t : Fin cfg0.N, t.val % 49 = 0 → acc t.val t.isLt = upd0 V c t col inb z)
    (hn : ∀ t : Fin cfg0.N, ¬t.val % 49 = 0 → acc t.val t.isLt
      = upd0 V c t col inb (acc (t.val - 1) (Nat.lt_of_le_of_lt (Nat.sub_le _ _) t.isLt)))
    (t : Fin cfg0.N) (h48 : t.val % 49 = 48) (r : Fin 2000) (k : Fin 128) :
    acc t.val t.isLt (ix2 r k) = gath (V c main_arg2) (V c main_v1) col (edge (eOf t) r) k := by
  have key : ∀ (n : ℕ) (h : n < cfg0.N),
      acc n h (ix2 r k) = ∑ s ∈ Finset.range (n % 49 + 1), chunkSum (V c main_arg2) (V c main_v1) col (edge (eOf ⟨n, h⟩) r) k s := by
    intro n
    induction n using Nat.strong_induction_on with
    | _ n ih =>
      intro h
      by_cases h0 : n % 49 = 0
      · rw [hf ⟨n, h⟩ h0, step_apply, hz, zero_add]
        show chunkSum _ _ col _ k (n % 49) = _
        rw [h0]
        exact (Finset.sum_range_one _).symm
      · have hm : n % 49 = (n - 1) % 49 + 1 := by omega
        have he : eOf ⟨n - 1, by omega⟩ = eOf ⟨n, h⟩ := Fin.ext (by show (n - 1) / 49 = n / 49; omega)
        rw [hn ⟨n, h⟩ h0, step_apply]
        show acc (n - 1) _ (ix2 r k) + chunkSum _ _ col _ k (n % 49) = _
        rw [ih (n - 1) (by omega), he, hm]
        exact (Finset.sum_range_succ _ _).symm
  rw [key t.val t.isLt, h48, Finset.sum_range]
  exact Finset.sum_congr rfl fun s _ => by rw [chunkSum, dif_pos s.isLt]

theorem acc0_last (t : Fin cfg0.N) (h48 : t.val % 49 = 48) (r : Fin 2000) (k : Fin 128) :
    acc0 V c t.val t.isLt (ix2 r k) = gath (V c main_arg2) (V c main_v1) 0 (edge (eOf t) r) k :=
  acc_last V c 0 _ (k0_pay5 (F := Ideal)) (acc0 V c) pay5_apply (acc0_first V c) (acc0_next V c) t h48 r k
theorem acc1_last (t : Fin cfg0.N) (h48 : t.val % 49 = 48) (r : Fin 2000) (k : Fin 128) :
    acc1 V c t.val t.isLt (ix2 r k) = gath (V c main_arg2) (V c main_v1) 1 (edge (eOf t) r) k :=
  acc_last V c 1 _ (k0_pay6 (F := Ideal)) (acc1 V c) pay6_apply (acc1_first V c) (acc1_next V c) t h48 r k

-- What a run's last point stores is the specification's message of the run's edges, given the accumulator's and the weights' entries.
theorem out_apply (t : Fin cfg0.N) (col : Fin 2) (acc : Vec Ideal S2000x128 .f32) (W : Vec Ideal S256x128 .f32) (b : Vec Ideal S128 .f32)
    (W' : (⟨2, ![256, 128]⟩ : Shape).Idx → EReal) (b' : (⟨1, ![128]⟩ : Shape).Idx → EReal)
    (hacc : ∀ r k, acc (ix2 r k) = gath (V c main_arg2) (V c main_v1) col (edge (eOf t) r) k)
    (hW : ∀ k d, W (ix2 k d) = W' (ix2 k d)) (hb : ∀ d, b (ix1 d) = b' (ix1 d)) (j : S2000x128.Idx)
    (x : S500000x128.Idx) (h0 : (x 0).val = 2000 * (t.val / 49) + (j 0).val) (h1 : (x 1).val = (j 1).val) :
    k0_pay3 (blk2 V c t) acc W b j = msg (V c main_arg2) (V c main_v1) (V c main_v2) W' b' col x := by
  obtain ⟨r, d, rfl⟩ : ∃ (r : Fin 2000) (d : Fin 128), j = ix2 r d := ⟨j 0, j 1, eq_ix2 j⟩
  obtain rfl : x = ix2 (edge (eOf t) r) d := ix2_of h0 h1
  show _ = (∑ k : Fin 256, cat (V c main_arg2) (V c main_v1) (V c main_v2) col (edge (eOf t) r) k * W' (ix2 k d)) + b' (ix1 d)
  rw [pay3_apply, hb]
  refine congrArg (fun s : EReal => s + b' (ix1 d)) (Finset.sum_congr rfl fun k _ => ?_)
  rw [hW]
  refine congrArg (fun s : EReal => s * W' (ix2 k d)) ?_
  unfold cat
  by_cases h : k.val < 128
  · rw [dif_pos h, dif_pos h, hacc]
  · rw [dif_neg h, dif_neg h, blk2_apply]

theorem flushed0_7_eq (t : Fin cfg0.N) (hf : (cfg0.win 7).flush t = true) :
    (dat0 V c).flushed 7 t = ((cfg0.win 7).blk t).view.read (Elt Ideal)
      (msg (V c main_arg2) (V c main_v1) (V c main_v2) (V c main_arg3) (V c main_arg4) 0) := by
  have := idx_facts0 t
  funext j
  show _ = msg _ _ _ _ _ _ (((cfg0.win 7).blk t).view.emb _)
  exact out_apply V c t 0 _ _ _ _ _ (acc0_last V c t ((flush0_7 t).mp hf)) (blk3_apply V c t) (blk4_apply V c t) j _
    (by show win0_7.index t 0 * 2000 + 1 * (j 0).val = 2000 * (t.val / 49) + (j 0).val; omega)
    (by show win0_7.index t 1 * 128 + 1 * (j 1).val = (j 1).val; omega)

theorem flushed0_8_eq (t : Fin cfg0.N) (hf : (cfg0.win 8).flush t = true) :
    (dat0 V c).flushed 8 t = ((cfg0.win 8).blk t).view.read (Elt Ideal)
      (msg (V c main_arg2) (V c main_v1) (V c main_v2) (V c main_arg5) (V c main_arg6) 1) := by
  have := idx_facts0 t
  funext j
  show _ = msg _ _ _ _ _ _ (((cfg0.win 8).blk t).view.emb _)
  exact out_apply V c t 1 _ _ _ _ _ (acc1_last V c t ((flush0_8 t).mp hf)) (blk5_apply V c t) (blk6_apply V c t) j _
    (by show win0_8.index t 0 * 2000 + 1 * (j 0).val = 2000 * (t.val / 49) + (j 0).val; omega)
    (by show win0_8.index t 1 * 128 + 1 * (j 1).val = (j 1).val; omega)

end Run

-- Edge `v` lies in the block of the last point of run `v / 2000`.
theorem cover0_7 (i : S500000x128.Idx) : ∃ t : Fin cfg0.N, (cfg0.win 7).flush t = true ∧ i ∈ ((cfg0.win 7).blk t).view.set := by
  have hi0 := idx2_lt0 i
  have hi1 := idx2_lt1 i
  obtain ⟨t, ht⟩ : ∃ t : Fin cfg0.N, t.val = 49 * ((i 0).val / 2000) + 48 := ⟨⟨_, lt_of_lt_of_eq (by omega) N_0.symm⟩, rfl⟩
  have := idx_facts0 t
  refine ⟨t, (flush0_7 t).mpr (by omega), ?_⟩
  show i ∈ ((View.whole main_v3_0).slice (win0_7.rect t)).set
  rw [View.set_slice_whole, Rect.mem_set_unit]
  intro a
  match a with
  | ⟨0, _⟩ => show win0_7.index t 0 * 2000 ≤ (i 0).val ∧ (i 0).val < win0_7.index t 0 * 2000 + 2000; omega
  | ⟨1, _⟩ => show win0_7.index t 1 * 128 ≤ (i 1).val ∧ (i 1).val < win0_7.index t 1 * 128 + 128; omega
theorem cover0_8 (i : S500000x128.Idx) : ∃ t : Fin cfg0.N, (cfg0.win 8).flush t = true ∧ i ∈ ((cfg0.win 8).blk t).view.set :=
  cover0_7 i

end Val0

-- The forward messages after the last point are the specification's, of the arrays the stage finds.
theorem arrAt0_7 (V : (c : Dev nD) → (b : Ref sig .tc) → Buf (Elt Ideal) ((c : Thread nD τ).loc b)) (c : Dev nD) :
    (dat0 (F := Ideal) V c).arrAt 7 cfg0.N
      = Cert.Spec.msg (V c main_arg2) (V c main_v1) (V c main_v2) (V c main_arg3) (V c main_arg4) 0 :=
  (dat0 V c).arrAt_eq_of_cover 7 _ (Val0.flushed0_7_eq V c) Val0.cover0_7

theorem arrAt0_8 (V : (c : Dev nD) → (b : Ref sig .tc) → Buf (Elt Ideal) ((c : Thread nD τ).loc b)) (c : Dev nD) :
    (dat0 (F := Ideal) V c).arrAt 8 cfg0.N
      = Cert.Spec.msg (V c main_arg2) (V c main_v1) (V c main_v2) (V c main_arg5) (V c main_arg6) 1 :=
  (dat0 V c).arrAt_eq_of_cover 8 _ (Val0.flushed0_8_eq V c) Val0.cover0_8

end Cert.KernelIdeal.Hand

end
-- ==== Proof.KI.Val1.lean ====
import proofs.«423191_j44616120271607_3_alg».proof.Proof.KI.Reg1
import proofs.«423191_j44616120271607_3_alg».proof.Proof.Spec
import Idealize.ShloMosaic.Lib.Pipeline.Value
import Idealize.ShloMosaic.Lib.ValueLayout
import Idealize.ShloMosaic.Lib.WholeRead
import Idealize.ShloMosaic.Lib.WindowSumWrites

noncomputable section

namespace Cert.KernelIdeal.Hand

open Cert.KernelIdeal Cert.KernelIdeal.Gen
open Idealize.ShloMosaic Idealize.ShloMosaic.TcCoe Idealize.ShloMosaic.ValueIdx
open Cert.Spec (oh edge)

-- The widened, converted bit of a word comparison is the indicator of equality.
theorem onehot_word_k1 (a : BitVec 32) (n : ℕ) :
    (FloatOps.sitofp (F := Ideal) .f32 ((IntOp.cmpi .eq a (BitVec.ofNat 32 n)).setWidth 32) : EReal) = oh a n := by
  unfold Cert.Spec.oh
  show (((BitVec.setWidth 32 (IntOp.cmpi .eq a _)).toInt : ℝ) : EReal) = _
  by_cases h : a = BitVec.ofNat 32 n <;> simp [IntOp.cmpi, beq_eq_decide, h]

-- No sum below wraps: 12800 q + 1280 k + l < 2^32.
theorem node_word_k1 (q k l : ℕ) (hq : q < 4) (hk : k < 10) (hl : l < 1280) :
    IntOp.addi (Scalar.addi (Scalar.muli (BitVec.ofNat 32 q) 12800#32)
        (Scalar.muli (Scalar.addi (0#32) (Scalar.muli (Scf.iv 0#32 1#32 k) 1#32)) 1280#32)) (BitVec.ofNat 32 l)
      = BitVec.ofNat 32 (12800 * q + 1280 * k + l) := by
  simp only [Scalar.addi, Scalar.muli, IntOp.addi, IntOp.muli, Scf.iv]
  apply BitVec.eq_of_toNat_eq
  simp only [BitVec.toNat_add, BitVec.toNat_mul, BitVec.toNat_ofNat]
  omega

-- Entry (e, l) of the one-hot matrix of trip k in quarter q: is edge e's index word node 12800 q + 1280 k + l?
theorem onehot_entry_k1 (q k : ℕ) (hq : q < 4) (hk : k < 10) (w : Vec Ideal S2000x1 .i32) (e : Fin 2000) (l : Fin 1280) :
    truncf (F := Ideal) .bf16 (sitofp .f32 (extui 32 (cmpi .eq (broadcastTo S2000x1280 w broadcasts_S2000x1_S2000x1280)
      (broadcastTo S2000x1280 (addi (broadcast S1x1280 (Scalar.addi (Scalar.muli (BitVec.ofNat 32 q) 12800#32)
          (Scalar.muli (Scalar.addi (0#32) (Scalar.muli (Scf.iv 0#32 1#32 k) 1#32)) 1280#32)))
        (iota .tc S1x1280 32 [1] iota_S1x1280_d1_w32)) broadcasts_S1x1280_S2000x1280)) natLt_1_32)) bitsLt_bf16_f32 (ix2 e l)
      = oh (w (ix2 e 0)) (12800 * q + 1280 * k + l.val) := by
  show FloatOps.sitofp (F := Ideal) .f32 ((IntOp.cmpi .eq (broadcastTo S2000x1280 w _ (ix2 e l)) (broadcastTo S2000x1280 _ _ (ix2 e l))).setWidth 32) = _
  rw [broadcastTo_1b_ab_apply, broadcastTo_apply w _ (ix2 e l) (ix2 e 0) (Fin.forall_fin_two.mpr ⟨rfl, rfl⟩)]
  show FloatOps.sitofp .f32 ((IntOp.cmpi .eq _ (IntOp.addi _ (iota .tc S1x1280 32 [1] iota_S1x1280_d1_w32 (ix2 0 l)))).setWidth 32) = _
  rw [iota_single_apply, broadcast_apply, node_word_k1 q k l.val hq hk l.isLt, onehot_word_k1]

-- A product against the edge axis into a zero accumulator, entry (l, d), as a sum over the 2000 edges.
theorem mm_k1_apply (A : FVec Ideal S2000x1280 .bf16) (m : FVec Ideal S2000x128 .bf16) (l : Fin 1280) (d : Fin 128) :
    FloatOps.matmul dot_S2000x1280_S2000x128_S1280x128_0_0_1_1_n_n none A m (constant S1280x128 .f32 0x00000000#32) (ix2 l d)
      = ∑ e : Fin 2000, A (ix2 e l) * m (ix2 e d) := by
  rw [Ideal.matmul_constant_zero_apply]
  refine (Equiv.sum_comp (contrEquiv1 _ 2000 rfl rfl).symm _).symm.trans (Finset.sum_congr rfl fun e _ => ?_)
  have hc := contrEquiv1_symm_val dot_S2000x1280_S2000x128_S1280x128_0_0_1_1_n_n 2000 rfl rfl e
  exact congrArg₂ _ (congrArg A (Shape.idx_ext₂ hc rfl)) (congrArg m (Shape.idx_ext₂ hc rfl))

-- One edge block's sums at node N: f over the edges whose word h1 is N, plus g over those whose word h0 is.
def cblk_k1 (N : ℕ) (h1 h0 : Fin 2000 → BitVec 32) (f g : Fin 2000 → EReal) : EReal :=
  (∑ e, oh (h1 e) N * f e) + (∑ e, oh (h0 e) N * g e)

theorem k1_pay2_apply (i : grid1.Coords) (v3 v4 : Vec Ideal S2000x1 .i32) (v5 v7 : Vec Ideal S2000x128 .bf16) (k : Fin k1_t1_loop.trips)
    (v39 : Vec Ideal S1280x128 .f32) (l : Fin 1280) (d : Fin 128) :
    k1_pay2 (F := Ideal) i v3 v4 v5 v7 k v39 (ix2 l d) = v39 (ix2 l d) + cblk_k1 (12800 * (i 0).val + 1280 * k.val + l.val)
      (fun e => v4 (ix2 e 0)) (fun e => v3 (ix2 e 0)) (fun e => v5 (ix2 e d)) (fun e => v7 (ix2 e d)) := by
  unfold k1_pay2 cblk_k1
  simp only [shapeCast_self, addf_apply, matmul, mm_k1_apply, onehot_entry_k1 _ _ (i 0).isLt (k.isLt.trans_le k1_t1_abs.2.1)]

-- The first n trips' writes, newest first: each adds to its own 1280-row slab of what the slab held before it.
theorem pb_k1_eq {c i arg2 harg2 arg3 harg3 arg4 harg4 arg5 harg5 arg6 harg6 v3 v4 v5 v7 G} : ∀ (n : ℕ) (hn : n ≤ k1_t1_loop.trips),
    pb_k1_t1 (F := Ideal) Variants.none c none i arg2 harg2 arg3 harg3 arg4 harg4 arg5 harg5 arg6 harg6 v3 v4 v5 v7 G n
      = View.accPieces arg6.view G [] ![1280, 128] k1_off1 k1_off1_inb (k1_pay2 i v3 v4 v5 v7) n hn
  | 0, _ => rfl
  | n + 1, hn => by
    rw [View.accPieces_succ, ← pb_k1_eq n (Nat.le_of_succ_le hn)]
    refine (pb_k1_t1_succ Variants.none c none i arg2 harg2 arg3 harg3 arg4 harg4 arg5 harg5 arg6 harg6 v3 v4 v5 v7 G ⟨n, hn⟩).trans ?_
    unfold tripL_k1_t1 trip_k1_t1
    rfl

variable (V : (c : Dev nD) → (b : Ref sig .tc) → Buf (Elt Ideal) ((c : Thread nD τ).loc b))

-- Edge block b's sums at node N, column d, off the index pairs and the two message arrays.
def blk_k1 (c : Dev nD) (b : Fin 250) (N : ℕ) (d : Fin 128) : EReal :=
  cblk_k1 N (fun e => V c main_arg2 (ix2 (edge b e) 1)) (fun e => V c main_arg2 (ix2 (edge b e) 0))
    (fun e => V c main_v3_0 (ix2 (edge b e) d)) (fun e => V c main_v3_1 (ix2 (edge b e) d))

-- Point t = 250 q + b is edge block b of quarter q.
theorem idx_facts1 : ∀ t : Fin cfg1.N, ((grid1.coords t) 0).val = t.val / 250
    ∧ win1_0.index t (0 : Fin 2) = t.val % 250 ∧ win1_0.index t (1 : Fin 2) = 0
    ∧ win1_3.index t (0 : Fin 2) = t.val / 250 ∧ win1_3.index t (1 : Fin 2) = 0 :=
  (by decide +kernel : ∀ t : Fin grid1.N, _)

theorem k1_pay1_zero (y : S12800x128.Idx) : k1_pay1 (F := Ideal) y = 0 := by
  unfold k1_pay1
  rw [shapeCast_self]
  exact Ideal.ofBits_zero_f32

-- Point n's addend at entry j of the accumulator: its edge block's sums at the node of row j 0 of its quarter.
def add_k1 (c : Dev nD) (n : ℕ) (j : S12800x128.Idx) : EReal :=
  blk_k1 V c (Fin.ofNat 250 n) (12800 * (n / 250) + (j 0).val) (j 1)

-- One point adds its addend to every entry of the accumulator.
theorem stepAt1_apply (c : Dev nD) (t : Fin cfg1.N) (xs : Vec Ideal S12800x128 .f32) (j : S12800x128.Idx) :
    stepAt1 V c t xs j = xs j + add_k1 V c t.val j := by
  obtain ⟨r, d, rfl⟩ : ∃ r d, j = ix2 r d := ⟨_, _, eq_ix2 j⟩
  obtain ⟨eq, e0, e1, -⟩ := idx_facts1 t
  unfold stepAt1 loopOut1 slabs1
  rw [pb_k1_eq _ le_rfl, View.read_accPieces_ix2 _ _ _ _ _ _ _ k1_off1_eq
    (fun k p d => blk_k1 V c (Fin.ofNat 250 t.val) (12800 * (t.val / 250) + 1280 * k.val + p.val) d)
    (fun k acc p d => ?_) (fun R d => if h : R < 12800 then xs (ix2 ⟨R, h⟩ d) else 0)
    (fun R d => by rw [dif_pos R.isLt]; exact congrFun (Memref.IsWhole.read_unread _ xs) _),
    WindowSum.windowAcc_all, dif_pos r.isLt]
  · unfold WindowSum.windowSum
    rw [Fintype.sum_eq_single (⟨r.val / 1280, (by decide : k1_t1_loop.trips = 10) ▸ (by omega : r.val / 1280 < 10)⟩ : Fin k1_t1_loop.trips)
      (fun n hn => dif_neg fun h => hn (Fin.ext (by beta_reduce at h; show n.val = r.val / 1280; omega))),
      dif_pos ⟨by show 1280 * (r.val / 1280) ≤ r.val; omega, by show r.val < 1280 * (r.val / 1280) + 1280; omega⟩]
    exact congrArg (fun N => _ + blk_k1 V c _ N d)
      (by show 12800 * _ + 1280 * (r.val / 1280) + (r.val - 1280 * (r.val / 1280)) = _ + r.val; omega)
  · rw [k1_pay2_apply, eq]
    unfold blk_k1
    congr 2 <;> funext e
    all_goals
      refine (Memref.IsWhole.readAt_unread _ _ _ _).trans (congrArg (V c _) (Shape.idx_ext₂
        (by show win1_0.index t (0 : Fin 2) * 2000 + 1 * (0 + 1 * e.val) = 2000 * (t.val % 250) + e.val; omega) ?_))
    · show win1_0.index t (1 : Fin 2) * 2 + 1 * (1 + 1 * 0) = 1; omega
    · show win1_0.index t (1 : Fin 2) * 2 + 1 * (0 + 1 * 0) = 0; omega
    all_goals show win1_0.index t (1 : Fin 2) * 128 + 1 * (0 + 1 * d.val) = d.val; omega

-- After point n the accumulator holds the addends of its quarter's points up to n, added in order from zero.
theorem sAt1_sum (c : Dev nD) (n : ℕ) (hn : n < cfg1.N) (i : S12800x128.Idx) :
    sAt1 V c n hn i = ∑ s ∈ Finset.range (n % 250 + 1), add_k1 V c (250 * (n / 250) + s) i := by
  have h' : 250 * (n / 250) + n % 250 < cfg1.N := by rw [Nat.div_add_mod]; exact hn
  rw [Pipeline.eq_accAt_of_mod (sAt1 V c) 250 (fun m h => stepAt1 V c ⟨m, h⟩ (k1_pay1 (F := Ideal))) (fun m h => stepAt1 V c ⟨m, h⟩)
      (fun m h => sAt1_A V c ⟨m, h⟩) (fun m h => sAt1_B V c ⟨m + 1, h⟩) (by decide) n hn h',
    Pipeline.accAt_add_apply _ _ (k1_pay1 (F := Ideal)) (add_k1 V c) _ 249 (fun h => stepAt1_apply V c ⟨_, h⟩ _) (fun m h acc j _ _ => stepAt1_apply V c ⟨m, h⟩ acc j) _
      (by omega) h' i, k1_pay1_zero, zero_add]

-- At the last point of a quarter the sum runs over all 250 edge blocks: the quarter's rows of the summed messages.
theorem flushed1_3 (c : Dev nD) (t : Fin cfg1.N) (hf : (cfg1.win 3).flush t = true) :
    (dat1 V c).flushed 3 t = ((cfg1.win 3).blk t).view.read (Elt Ideal) (Cert.Spec.agg (V c main_arg2) (V c main_v3_0) (V c main_v3_1)) := by
  have h249 : t.val % 250 = 249 := (flush1_3 t).mp hf
  obtain ⟨-, -, -, e30, e31⟩ := idx_facts1 t
  show (cfg1.win 3).cut (grid1.coords t) ((dat1 V c).after 3 t) = _
  rw [after1_3]
  funext y
  have hy := idx2_lt0 y
  have hN : t.val < 1000 := N_1 ▸ t.isLt
  have hemb : ((cfg1.win 3).blk t).view.emb y = ix2 (⟨12800 * (t.val / 250) + (y 0).val, by omega⟩ : Fin 51200) (y 1) :=
    Shape.idx_ext₂ (by show win1_3.index t (0 : Fin 2) * 12800 + 1 * (y 0).val = 12800 * (t.val / 250) + (y 0).val; omega)
      (by show win1_3.index t (1 : Fin 2) * 128 + 1 * (y 1).val = (y 1).val; omega)
  show sAt1 V c t.val t.isLt y = Cert.Spec.agg _ _ _ (((cfg1.win 3).blk t).view.emb y)
  rw [hemb, sAt1_sum, h249, Finset.sum_range]
  refine Finset.sum_congr rfl fun b _ => ?_
  exact congrArg₂ (fun b n => blk_k1 V c b (12800 * n + (y 0).val) (y 1)) (Fin.ext (by show _ % 250 = _; omega)) (by omega)

-- Row i lies in quarter i / 12800, whose last point is 250 (i / 12800) + 249.
theorem cover1_3 (i : S51200x128.Idx) :
    ∃ t : Fin cfg1.N, (cfg1.win 3).flush t = true ∧ i ∈ ((cfg1.win 3).blk t).view.set := by
  have hi0 := idx2_lt0 i
  have hi1 := idx2_lt1 i
  obtain ⟨t, ht⟩ : ∃ t : Fin cfg1.N, t.val = 250 * ((i 0).val / 12800) + 249 :=
    ⟨⟨_, by rw [show cfg1.N = 1000 from N_1]; omega⟩, rfl⟩
  obtain ⟨-, -, -, e30, e31⟩ := idx_facts1 t
  refine ⟨t, (flush1_3 t).mpr (by omega), ?_⟩
  show i ∈ ((View.whole main_v4).slice (win1_3.rect t)).set
  rw [View.set_slice_whole, Rect.mem_set_unit]
  exact Fin.forall_fin_two.mpr ⟨by show win1_3.index t (0 : Fin 2) * 12800 ≤ (i 0).val ∧ (i 0).val < win1_3.index t (0 : Fin 2) * 12800 + 12800; omega,
    by show win1_3.index t (1 : Fin 2) * 128 ≤ (i 1).val ∧ (i 1).val < win1_3.index t (1 : Fin 2) * 128 + 128; omega⟩

theorem arrAt1_3 (c : Dev nD) : (dat1 (F := Ideal) V c).arrAt 3 cfg1.N = Cert.Spec.agg (V c main_arg2) (V c main_v3_0) (V c main_v3_1) :=
  (dat1 V c).arrAt_eq_of_cover 3 _ (flushed1_3 V c) cover1_3

end Cert.KernelIdeal.Hand

end
-- ==== Proof.KI.Val2.lean ====
import proofs.«423191_j44616120271607_3_alg».proof.Proof.KI.Reg2
import proofs.«423191_j44616120271607_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

-- The widened comparison bit, converted, is the indicator of equality.
theorem onehot_eq (a b : BitVec 32) :
    (FloatOps.sitofp (F := Ideal) .f32 ((IntOp.cmpi .eq a b).setWidth 32)) = if a = b then (1 : EReal) else 0 := by
  show (((((BitVec.ofBool (a == b)).setWidth 32).toInt : ℤ) : ℝ) : EReal) = _
  by_cases h : a = b
  · rw [if_pos h, beq_iff_eq.mpr h]
    show (((1 : ℤ) : ℝ) : EReal) = 1
    simp
  · rw [if_neg h, beq_eq_false_iff_ne.mpr h]
    show (((0 : ℤ) : ℝ) : EReal) = 0
    simp

theorem lane_word (n j : ℕ) :
    IntOp.addi (Scalar.muli (BitVec.ofNat 32 n) 1024#32) (BitVec.ofNat 32 j) = BitVec.ofNat 32 (1024 * n + j) := by
  show BitVec.ofNat 32 n * 1024#32 + BitVec.ofNat 32 j = _
  rw [BitVec.ofNat_add, BitVec.ofNat_mul, BitVec.mul_comm (BitVec.ofNat 32 n)]

-- A sum reduction down the rows of the converted comparison matrix counts, at lane `j`, the rows whose word is the lane's.
theorem col_count (n : ℕ) (v : Vec Ideal S2000x1 .i32) (j : Fin 1024) :
    (multiReduction .add [0] S1024
        (sitofp .f32 (extui 32 (cmpi .eq (broadcastTo S2000x1024 v broadcasts_S2000x1_S2000x1024)
          (broadcastTo S2000x1024 (addi (broadcast S1x1024 (Scalar.muli (BitVec.ofNat 32 n) 1024#32)) (iota .tc S1x1024 32 [1] iota_S1x1024_d1_w32)) broadcasts_S1x1024_S2000x1024)) natLt_1_32) : FVec Ideal S2000x1024 .f32)
        0x00000000#32 reduces_S2000x1024_S1024 (.inl rfl) rfl) (ix1 j)
      = ∑ r : Fin 2000, Cert.Spec.oh (v (ix2 r (0 : Fin 1))) (1024 * n + j.val) := by
  refine (Ideal.multiReduction_add_single _ _ reduces_S2000x1024_S1024 _ _ (ix1 j)).trans (Finset.sum_congr rfl fun r _ => ?_)
  rw [show reduces_S2000x1024_S1024.lift (ix1 j) r = ix2 r j from funext fun a => match a with
    | ⟨0, _⟩ => rfl
    | ⟨1, _⟩ => rfl]
  refine (onehot_eq _ _).trans (congrArg₂ (fun a b : BitVec 32 => if a = b then (1 : EReal) else 0) ?_ ?_)
  · exact broadcastTo_apply v _ (ix2 r j) (ix2 r (0 : Fin 1)) fun ax => match ax with
      | ⟨0, _⟩ => rfl
      | ⟨1, _⟩ => rfl
  · exact (broadcastTo_1b_ab_apply _ _ r j).trans
      ((congrArg (IntOp.addi _) (iota_single_apply .tc S1x1024 32 1 iota_S1x1024_d1_w32 (ix2 (0 : Fin 1) j))).trans (lane_word n j.val))

-- One point's update at lane `j`: what the accumulator held plus the head count plus the tail count.
theorem upd_lane (i : grid2.Coords) (x : Vec Ideal S2000x2 .i32) (s : Vec Ideal S1024 .f32) (j : Fin 1024) :
    upd i x s (ix1 j)
      = s (ix1 j) + ((∑ r : Fin 2000, Cert.Spec.oh (x (ix2 r (0 : Fin 2))) (1024 * (i 0).val + j.val))
          + (∑ r : Fin 2000, Cert.Spec.oh (x (ix2 r (1 : Fin 2))) (1024 * (i 0).val + j.val))) := by
  unfold upd k2_pay2
  refine (congrFun (shapeCast_self _ _) (ix1 j)).trans <| (addf_apply _ _ _).trans <| congrArg (s (ix1 j) + ·) <|
    (addf_apply _ _ _).trans <| congrArg₂ (· + ·) ((col_count (i 0).val _ j).trans ?_) ((col_count (i 0).val _ j).trans ?_)
  all_goals exact Finset.sum_congr rfl fun r _ =>
    congrArg (Cert.Spec.oh · _) (congrArg x (Shape.idx_ext₂ (by show 0 + 1 * r.val = r.val; omega) rfl))

-- The reset contents are the zero word's value.
theorem zero2_lane (y : S1024.Idx) : (zero2 (F := Ideal)) y = 0 := by
  unfold zero2 k2_pay1
  exact (congrFun (shapeCast_self _ _) y).trans Ideal.ofBits_zero_f32

def cf (ht : (⟨2, ![500000, 2]⟩ : Shape).Idx → BitVec 32) (v : ℕ) (b : Fin 250) : EReal :=
  (∑ r : Fin 2000, Cert.Spec.oh (ht (ix2 (Cert.Spec.edge b r) 0)) v) + (∑ r : Fin 2000, Cert.Spec.oh (ht (ix2 (Cert.Spec.edge b r) 1)) v)

def part (ht : (⟨2, ![500000, 2]⟩ : Shape).Idx → BitVec 32) (v e : ℕ) : EReal :=
  ∑ b : Fin 250, if b.val ≤ e then cf ht v b else 0

theorem part_zero (ht : (⟨2, ![500000, 2]⟩ : Shape).Idx → BitVec 32) (v : ℕ) : part ht v 0 = cf ht v 0 :=
  (Finset.sum_eq_single (0 : Fin 250) (fun b _ hb => if_neg fun h => hb (Fin.ext (Nat.le_zero.mp h)))
    fun h => absurd (Finset.mem_univ _) h).trans (if_pos (Nat.le_refl 0))

theorem part_succ (ht : (⟨2, ![500000, 2]⟩ : Shape).Idx → BitVec 32) (v e : ℕ) (he : e + 1 < 250) :
    part ht v (e + 1) = part ht v e + cf ht v ⟨e + 1, he⟩ := by
  unfold part
  have split : ∀ b : Fin 250, (if b.val ≤ e + 1 then cf ht v b else 0)
      = (if b.val ≤ e then cf ht v b else 0) + (if b = ⟨e + 1, he⟩ then cf ht v b else 0) := by
    intro b
    by_cases h1 : b.val ≤ e
    · have hne : ¬b = ⟨e + 1, he⟩ := fun h => by
        have hv : b.val = e + 1 := congrArg Fin.val h
        omega
      rw [if_pos h1, if_pos (by omega), if_neg hne, add_zero]
    · by_cases h2 : b = ⟨e + 1, he⟩
      · have hv : b.val = e + 1 := congrArg Fin.val h2
        rw [if_neg h1, if_pos h2, if_pos (by omega), zero_add]
      · have hv : ¬b.val ≤ e + 1 := fun h => h2 (Fin.ext (by show b.val = e + 1; omega))
        rw [if_neg h1, if_neg h2, if_neg hv, add_zero]
  rw [Finset.sum_congr rfl fun b _ => split b, Finset.sum_add_distrib]
  simp only [Finset.sum_ite_eq', Finset.mem_univ, if_true]

theorem part_full (ht : (⟨2, ![500000, 2]⟩ : Shape).Idx → BitVec 32) (v : ℕ) : part ht v 249 = ∑ b : Fin 250, cf ht v b :=
  Finset.sum_congr rfl fun b _ => if_pos (by have := b.isLt; omega)

theorem idx_facts2 : ∀ t : Fin cfg2.N, win2_0.index t (0 : Fin 2) = t.val % 250 ∧ win2_0.index t (1 : Fin 2) = 0
    ∧ win2_1.index t (0 : Fin 1) = t.val / 250 ∧ ((grid2.coords t) 0).val = t.val / 250 :=
  (by decide +kernel : ∀ t : Fin grid2.N, _)

theorem xblk_apply (c : Dev nD) (t : Fin cfg2.N) (b : Fin 250) (hb : b.val = t.val % 250) (r : Fin 2000) (k : Fin 2) :
    xblk V c t (ix2 r k) = V c main_arg2 (ix2 (Cert.Spec.edge b r) k) := by
  have e := idx_facts2 t
  show V c main_arg2 (((cfg2.win 0).blk t).view.emb (ix2 r k)) = _
  exact congrArg _ (Shape.idx_ext₂ (by show win2_0.index t (0 : Fin 2) * 2000 + 1 * r.val = 2000 * b.val + r.val; omega)
    (by show win2_0.index t (1 : Fin 2) * 2 + 1 * k.val = k.val; omega))

-- One point adds to each lane the occurrences of the lane's node in the point's edge block.
theorem step_lane (c : Dev nD) (t : Fin cfg2.N) (b : Fin 250) (hb : b.val = t.val % 250) (s : Vec Ideal S1024 .f32) (j : Fin 1024) :
    upd (grid2.coords t) (xblk V c t) s (ix1 j) = s (ix1 j) + cf (V c main_arg2) (1024 * (t.val / 250) + j.val) b := by
  rw [upd_lane, (idx_facts2 t).2.2.2]
  unfold cf
  simp only [xblk_apply V c t b hb]

theorem first_lane (c : Dev nD) (t : Fin cfg2.N) (h0 : t.val % 250 = 0) (j : Fin 1024) :
    scr V c t.val t.isLt (ix1 j) = part (V c main_arg2) (1024 * (t.val / 250) + j.val) (t.val % 250) := by
  rw [scr_first V c t h0, step_lane V c t 0 h0.symm, zero2_lane, zero_add, h0, part_zero]

theorem next_lane (c : Dev nD) (t : Fin cfg2.N) (h0 : ¬t.val % 250 = 0) (j : Fin 1024)
    (ih : scr V c (t.val - 1) (Nat.lt_of_le_of_lt (Nat.sub_le _ _) t.isLt) (ix1 j)
      = part (V c main_arg2) (1024 * ((t.val - 1) / 250) + j.val) ((t.val - 1) % 250)) :
    scr V c t.val t.isLt (ix1 j) = part (V c main_arg2) (1024 * (t.val / 250) + j.val) (t.val % 250) := by
  have hlt : (t.val - 1) % 250 + 1 < 250 := by omega
  have hm : t.val % 250 = (t.val - 1) % 250 + 1 := by omega
  rw [scr_next V c t h0, step_lane V c t ⟨_, hlt⟩ hm.symm, ih, hm, part_succ _ _ _ hlt,
    show (t.val - 1) / 250 = t.val / 250 by omega]

-- By induction on the point: zero is the unit at the first point of a run.
theorem scr_lane (c : Dev nD) : ∀ (n : ℕ) (hn : n < cfg2.N) (j : Fin 1024),
    scr V c n hn (ix1 j) = part (V c main_arg2) (1024 * (n / 250) + j.val) (n % 250) := by
  intro n
  induction n with
  | zero => intro hn j; exact first_lane V c ⟨0, hn⟩ (Nat.zero_mod _) j
  | succ n ih =>
    intro hn j
    by_cases h0 : (n + 1) % 250 = 0
    · exact first_lane V c ⟨n + 1, hn⟩ h0 j
    · exact next_lane V c ⟨n + 1, hn⟩ h0 j (ih (Nat.lt_of_succ_lt hn) j)

theorem flushed2_1 (c : Dev nD) (t : Fin cfg2.N) (h1 : t.val % 250 = 249) :
    (dat2 V c).flushed 1 t = ((cfg2.win 1).blk t).view.read (Elt Ideal) (Cert.Spec.cnt (V c main_arg2)) := by
  obtain ⟨-, -, e2, -⟩ := idx_facts2 t
  show (cfg2.win 1).cut (grid2.coords t) ((dat2 V c).after 1 t) = _
  rw [after2_1]
  funext y
  obtain ⟨j, rfl⟩ : ∃ j : Fin 1024, y = ix1 j := ⟨y 0, eq_ix1 (n := 1024) y⟩
  show scr V c t.val t.isLt (ix1 j) = Cert.Spec.cnt (V c main_arg2) (((cfg2.win 1).blk t).view.emb (ix1 j))
  rw [scr_lane V c t.val t.isLt j, h1, part_full]
  have he : ((((cfg2.win 1).blk t).view.emb (ix1 j)) 0).val = 1024 * (t.val / 250) + j.val := by
    show win2_1.index t (0 : Fin 1) * 1024 + 1 * j.val = _; omega
  rw [← he]
  rfl

theorem mem_blk2_1 (t : Fin cfg2.N) (i : S50176.Idx) :
    i ∈ ((cfg2.win 1).blk t).view.set ↔ ∀ a : Fin 1, win2_1.index t a * S1024.size a ≤ (i a).val ∧ (i a).val < win2_1.index t a * S1024.size a + S1024.size a := by
  show i ∈ ((View.whole main_v6).slice (win2_1.rect t)).set ↔ _
  rw [View.set_slice_whole, Rect.mem_set_unit]
  exact Iff.rfl

theorem cover2_1 (i : S50176.Idx) : ∃ t : Fin cfg2.N, (cfg2.win 1).flush t = true ∧ i ∈ ((cfg2.win 1).blk t).view.set := by
  have hi : (i 0).val < 50176 := (i 0).isLt
  obtain ⟨t, ht⟩ : ∃ t : Fin cfg2.N, t.val = 250 * ((i 0).val / 1024) + 249 :=
    ⟨⟨_, lt_of_lt_of_eq (by omega : 250 * ((i 0).val / 1024) + 249 < 12250) N_2.symm⟩, rfl⟩
  have e := idx_facts2 t
  refine ⟨t, (flush2_1 t).mpr (by omega), (mem_blk2_1 t i).mpr fun a => ?_⟩
  match a with
  | ⟨0, _⟩ => show win2_1.index t (0 : Fin 1) * 1024 ≤ (i 0).val ∧ (i 0).val < win2_1.index t (0 : Fin 1) * 1024 + 1024; omega

theorem arrAt2_1 (c : Dev nD) : (dat2 (F := Ideal) V c).arrAt 1 cfg2.N = Cert.Spec.cnt (V c main_arg2) :=
  (dat2 V c).arrAt_eq_of_cover 1 (Cert.Spec.cnt (V c main_arg2)) (fun t hf => flushed2_1 V c t ((flush2_1 t).mp hf)) cover2_1

end Cert.KernelIdeal.Hand

end
-- ==== Proof.KI.Val3.lean ====
import proofs.«423191_j44616120271607_3_alg».proof.Proof.KI.Reg3
import proofs.«423191_j44616120271607_3_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Hand

open Cert.KernelIdeal.Gen
open Idealize.ShloMosaic Idealize.ShloMosaic.TcCoe Idealize.SL.Sem
open Idealize.ShloMosaic.ValueIdx
open Idealize.ShloMosaic.Pipeline (Dat)

section Layout
variable {α : Type}

-- Both indices have row-major position `i`.
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

-- The operand's second axis has extent one.
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) :=
  broadcastTo_apply v h (ix2 p c) (ix2 p (0 : Fin 1)) fun ax => by
    match ax with
    | ⟨0, _⟩ => show p.val = if a = 1 then 0 else p.val; split <;> omega
    | ⟨1, _⟩ => rfl

end Layout

-- The reduced axis is the second, so the sum runs over the row's entries.
theorem laneSum3 (src : FVec Ideal S1000x128 .f32) (hφ : FKind.Formats .f32) (hacc : (0x00000000#32 : BitVec 32) = 0x00000000#32) (r : Fin 1000) :
    multiReduction .add [1] S1000 src 0x00000000#32 reduces_S1000x128_S1000 hφ hacc (ix1 r) = ∑ d : Fin 128, src (ix2 r d) :=
  (Ideal.multiReduction_add_single src _ reduces_S1000x128_S1000 hφ hacc (ix1 r)).trans <|
    Finset.sum_congr rfl fun d _ => congrArg src <| funext fun ax => match ax with
      | ⟨0, _⟩ => rfl
      | ⟨1, _⟩ => rfl

theorem rsqrt_apply {s : Shape} {φ : FTy} (a : FVec Ideal s φ) (i : s.Idx) : rsqrt a i = Ideal.rsqrt (a i) := rfl

section Rows
variable {S : (⟨2, ![50000, 128]⟩ : Shape).Idx → EReal} {C : (⟨2, ![50000, 1]⟩ : Shape).Idx → EReal}
  {H : (⟨2, ![50000, 128]⟩ : Shape).Idx → EReal} {g b : (⟨1, ![128]⟩ : Shape).Idx → EReal}
  {x0 : Vec Ideal S1000x128 .f32} {x1 : Vec Ideal S1000x1 .f32} {x2 : Vec Ideal S1000x128 .f32}
  {x3 : Vec Ideal S128 .f32} {x4 : Vec Ideal S128 .f32} (r : Fin 1000) (v : Fin 50000)

-- Every operation is entrywise except the two lane sums, and every broadcast repeats one value of a row or of a lane.
theorem pay3_eq_fin (h0 : ∀ d, x0 (ix2 r d) = S (ix2 v d)) (h1 : x1 (ix2 r (0 : Fin 1)) = C (ix2 v (0 : Fin 1)))
    (h2 : ∀ d, x2 (ix2 r d) = H (ix2 v d)) (h3 : ∀ d, x3 (ix1 d) = g (ix1 d)) (h4 : ∀ d, x4 (ix1 d) = b (ix1 d)) (d : Fin 128) :
    k3_pay1 x0 x1 x2 x3 x4 (ix2 r d) = Cert.Spec.fin S C H g b (ix2 v d) := by
  unfold k3_pay1
  repeat (first
    | rw [laneSum3]
    | simp only [addf_apply, mulf_apply, subf_apply, divf_apply, select_apply, cmpf_apply, broadcast_apply, rsqrt_apply,
        broadcastTo_a1_ab_apply, broadcastTo_1b_ab_apply, shapeCast_a_1a_apply, shapeCast_a_a1_apply, shapeCast_self,
        h0, h1, h2, h3, h4])
  rfl

end Rows

variable (V : (c : Dev nD) → (b : Ref sig .tc) → Buf (Elt Ideal) ((c : Thread nD τ).loc b))

theorem hz2_k3 : (![0, 0] : Fin 2 → Nat) = fun _ => 0 := funext fun a => by fin_cases a <;> rfl
theorem hz1_k3 : (![0] : Fin 1 → Nat) = fun _ => 0 := funext fun a => by fin_cases a; rfl

-- A finite check over the fifty points.
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0 ∧ win3_4.index t (0 : Fin 1) = 0
    ∧ win3_5.index t (0 : Fin 2) = t.val ∧ win3_5.index t (1 : Fin 2) = 0 :=
  (by decide +kernel : ∀ t : Fin grid3.N, _)

-- Row `r` of block `t` is row `1000 t + r` of the arrays.
def node (t : Fin cfg3.N) (r : Fin 1000) : Fin 50000 :=
  ⟨1000 * t.val + r.val, by have := lt_of_lt_of_eq t.isLt N_3; have := r.isLt; omega⟩

theorem blk3_0 (c : Dev nD) (t : Fin cfg3.N) (r : Fin 1000) (d : Fin 128) :
    iblk3 V c 0 t (ix2 r d) = V c main_v5 (ix2 (node t r) d) := by
  have e := idx_facts3 t
  show V c main_v5 (((cfg3.win 0).blk t).view.emb (ix2 r d)) = _
  exact congrArg _ (Shape.idx_ext₂ (by show win3_0.index t (0 : Fin 2) * 1000 + 1 * r.val = 1000 * t.val + r.val; omega)
    (by show win3_0.index t (1 : Fin 2) * 128 + 1 * d.val = d.val; omega))

theorem blk3_1 (c : Dev nD) (t : Fin cfg3.N) (r : Fin 1000) :
    iblk3 V c 1 t (ix2 r (0 : Fin 1)) = V c main_v8 (ix2 (node t r) (0 : Fin 1)) := by
  have e := idx_facts3 t
  show V c main_v8 (((cfg3.win 1).blk t).view.emb (ix2 r (0 : Fin 1))) = _
  exact congrArg _ (Shape.idx_ext₂ (by show win3_1.index t (0 : Fin 2) * 1000 + 1 * r.val = 1000 * t.val + r.val; omega)
    (by show win3_1.index t (1 : Fin 2) * 1 + 1 * 0 = 0; omega))

theorem blk3_2 (c : Dev nD) (t : Fin cfg3.N) (r : Fin 1000) (d : Fin 128) :
    iblk3 V c 2 t (ix2 r d) = V c main_arg0 (ix2 (node t r) d) := by
  have e := idx_facts3 t
  show V c main_arg0 (((cfg3.win 2).blk t).view.emb (ix2 r d)) = _
  exact congrArg _ (Shape.idx_ext₂ (by show win3_2.index t (0 : Fin 2) * 1000 + 1 * r.val = 1000 * t.val + r.val; omega)
    (by show win3_2.index t (1 : Fin 2) * 128 + 1 * d.val = d.val; omega))

theorem blk3_3 (c : Dev nD) (t : Fin cfg3.N) (d : Fin 128) : iblk3 V c 3 t (ix1 d) = V c main_arg7 (ix1 d) := by
  have e := idx_facts3 t
  show V c main_arg7 (((cfg3.win 3).blk t).view.emb (ix1 d)) = _
  exact congrArg _ (funext fun a => Fin.ext (match a with
    | ⟨0, _⟩ => by show win3_3.index t (0 : Fin 1) * 128 + 1 * d.val = d.val; omega))

theorem blk3_4 (c : Dev nD) (t : Fin cfg3.N) (d : Fin 128) : iblk3 V c 4 t (ix1 d) = V c main_arg8 (ix1 d) := by
  have e := idx_facts3 t
  show V c main_arg8 (((cfg3.win 4).blk t).view.emb (ix1 d)) = _
  exact congrArg _ (funext fun a => Fin.ext (match a with
    | ⟨0, _⟩ => by show win3_4.index t (0 : Fin 1) * 128 + 1 * d.val = d.val; omega))

theorem flushed3_eq (c : Dev nD) (t : Fin cfg3.N) :
    (dat3 V c).flushed 5 t = ((cfg3.win 5).blk t).view.read (Elt Ideal)
      (Cert.Spec.fin (V c main_v5) (V c main_v8) (V c main_arg0) (V c main_arg7) (V c main_arg8)) := by
  show (cfg3.win 5).cut (grid3.coords t) ((dat3 V c).after 5 t) = _
  rw [after3_5]
  unfold out3_5
  rw [View.canon_unit_zero hz2_k3]
  simp only [View.ld_unit_zero (S := S1000x128) hz2_k3, View.ld_unit_zero (S := S1000x1) hz2_k3, View.ld_unit_zero (S := S128) hz1_k3]
  have e := idx_facts3 t
  funext j
  obtain ⟨r, d, rfl⟩ : ∃ (r : Fin 1000) (d : Fin 128), j = ix2 r d := ⟨j 0, j 1, eq_ix2 j⟩
  show k3_pay1 (iblk3 V c 0 t) (iblk3 V c 1 t) (iblk3 V c 2 t) (iblk3 V c 3 t) (iblk3 V c 4 t) (ix2 r d)
    = Cert.Spec.fin _ _ _ _ _ (((cfg3.win 5).blk t).view.emb (ix2 r d))
  exact (pay3_eq_fin r (node t r) (blk3_0 V c t r) (blk3_1 V c t r) (blk3_2 V c t r) (blk3_3 V c t) (blk3_4 V c t) d).trans
    (congrArg _ (Shape.idx_ext₂ (by show 1000 * t.val + r.val = win3_5.index t (0 : Fin 2) * 1000 + 1 * r.val; omega)
      (by show d.val = win3_5.index t (1 : Fin 2) * 128 + 1 * d.val; omega)))

theorem mem_blk3 (t : Fin cfg3.N) (i : S50000x128.Idx) :
    i ∈ ((cfg3.win 5).blk t).view.set ↔ ∀ a : Fin 2, win3_5.index t a * S1000x128.size a ≤ (i a).val ∧ (i a).val < win3_5.index t a * S1000x128.size a + S1000x128.size a := by
  show i ∈ ((View.whole main_v9).slice (win3_5.rect t)).set ↔ _
  rw [View.set_slice_whole, Rect.mem_set_unit]
  exact Iff.rfl

-- Row `v` lies in the block of point `v / 1000`.
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ : ∃ t : Fin cfg3.N, t.val = (i 0).val / 1000 := ⟨⟨(i 0).val / 1000, by rw [show cfg3.N = 50 from N_3]; omega⟩, rfl⟩
  have e := idx_facts3 t
  refine ⟨t, flush3_5 t, (mem_blk3 t i).mpr fun a => ?_⟩
  match a with
  | ⟨0, _⟩ => show win3_5.index t (0 : Fin 2) * 1000 ≤ (i 0).val ∧ (i 0).val < win3_5.index t (0 : Fin 2) * 1000 + 1000; omega
  | ⟨1, _⟩ => show win3_5.index t (1 : Fin 2) * 128 ≤ (i 1).val ∧ (i 1).val < win3_5.index t (1 : Fin 2) * 128 + 128; omega

theorem arrAt3_5 (c : Dev nD) :
    (dat3 (F := Ideal) V c).arrAt 5 cfg3.N
      = Cert.Spec.fin (V c main_v5) (V c main_v8) (V c main_arg0) (V c main_arg7) (V c main_arg8) :=
  (dat3 V c).arrAt_eq_of_cover 5 _ (fun t _ => flushed3_eq V c t) cover3

end Cert.KernelIdeal.Hand

end
-- ==== Proof.KI.Chain.lean ====
import proofs.«423191_j44616120271607_3_alg».proof.Proof.KI.Launch
import proofs.«423191_j44616120271607_3_alg».proof.Proof.Spec
import Idealize.ShloMosaic.Lib.StableHlo.Run
import Idealize.ShloMosaic.Lib.Pipeline.Value
import Idealize.ShloMosaic.Lib.ValueIdx
import Idealize.ShloMosaic.Lib.KernelVsHost

noncomputable section

namespace Cert.KernelIdeal.Hand

open Cert.KernelIdeal Cert.KernelIdeal.Gen
open Idealize.ShloMosaic Idealize.ShloMosaic.TcCoe Idealize.ShloMosaic.Tactic
open Idealize.ShloMosaic.StableHlo Idealize.ShloMosaic.ValueIdx

variable (h0 : Half0 (F := Ideal)) (h1 : Half1 (F := Ideal)) (h2 : Half2 (F := Ideal)) (h3 : Half3 (F := Ideal))
variable (m : (ℓ : Loc nD τ sig) → Buf (Elt Ideal) ℓ)

-- For every launched argument stage 0 reads: nothing before stage 0 writes it.
theorem V3_arg (c : Dev nD) (b : Ref sig .tc) (hb : b ∉ hostOps0_W ++ hostOps0_1_W ++ hostOps0_2_W) :
    V3 m c b = m ((c : Thread nD τ).loc b) :=
  (after_of_writes_sub hostOps0_2 (W2 m c) hostOps0_2_writes fun h => hb (List.mem_append_right _ h)).trans <|
    (after_of_writes_sub hostOps0_1 (W1 m c) hostOps0_1_writes fun h => hb (List.mem_append_left _ (List.mem_append_right _ h))).trans <|
      after_of_writes_sub hostOps0 (W0 m c) hostOps0_writes fun h => hb (List.mem_append_left _ (List.mem_append_left _ h))

-- Narrowing is the identity on extended reals.
theorem V3_main_v2 (c : Dev nD) :
    (V3 m c main_v2 : S500000x128.Idx → EReal) = m ((c : Thread nD τ).loc main_arg1) := by
  show after hostOps0_2 (W2 m c) (Proc.devRef .tc main_v2) = _
  after_results
  all_goals rfl

-- The padding value is the converted zero word, which is zero.
theorem V3_main_v1 (c : Dev nD) :
    (V3 m c main_v1 : S50176x128.Idx → EReal) = Cert.Spec.Hpad (m ((c : Thread nD τ).loc main_arg0)) := by
  have e : (V3 m c main_v1 : S50176x128.Idx → EReal)
      = pad S50176x128 ![0, 0] ![176, 0] ![0, 0]
          ((truncf .bf16 (m ((c : Thread nD τ).loc main_arg0) : FVec Ideal S50000x128 .f32) bitsLt_bf16_f32 : FVec Ideal S50000x128 .bf16))
          ((sitofp .bf16 (constantI S_ 32 0#32) : FVec Ideal S_ .bf16))
          pads_S50000x128_S50176x128_01760_000 h_S_ := by
    show after hostOps0_2 (W2 m c) (Proc.devRef .tc main_v1) = _
    after_results
    all_goals rfl
  rw [e]
  funext j
  unfold Cert.Spec.Hpad
  by_cases h : (j 0).val < 50000
  · rw [dif_pos h]
    refine (pad_apply_of_inside _ _ _ _ _ _ _ j (ix2 ⟨(j 0).val, h⟩ (j 1)) fun a => ?_).trans rfl
    match a with
    | ⟨0, _⟩ => show (j 0).val = 0 + (j 0).val * (0 + 1); omega
    | ⟨1, _⟩ => show (j 1).val = 0 + (j 1).val * (0 + 1); omega
  · rw [dif_neg h]
    refine (pad_apply_of_not_inside _ _ _ _ _ _ _ j (0 : Fin 2) ?_).trans sitofp_zero
    show ¬(0 ≤ (j 0).val ∧ ((j 0).val - 0) % (0 + 1) = 0 ∧ ((j 0).val - 0) / (0 + 1) < 50000)
    omega

theorem V4_main_arg2 (c : Dev nD) : V4 h0 m c main_arg2 = m ((c : Thread nD τ).loc main_arg2) :=
  (W4_in h0 m c 0 rfl).trans (V3_arg m c main_arg2 (by decide))
theorem V4_main_v3_0 (c : Dev nD) : V4 h0 m c main_v3_0 = (h0.dat (V3 m) c).arrAt 7 cfg0.N := W4_arr h0 m c 7
theorem V4_main_v3_1 (c : Dev nD) : V4 h0 m c main_v3_1 = (h0.dat (V3 m) c).arrAt 8 cfg0.N := W4_arr h0 m c 8

-- For the node table, the scale and the shift: nothing before the last stage writes them.
theorem V8_arg (c : Dev nD) (b : Ref sig .tc) (hb : b ∉ hostOps0_W ++ hostOps0_1_W ++ hostOps0_2_W)
    (hh : b ∉ hostOps2_W ++ hostOps3_W)
    (hn : (∀ w, Pipeline.arrRef spec0 w ≠ b) ∧ (∀ w, Pipeline.arrRef spec1 w ≠ b) ∧ ∀ w, Pipeline.arrRef spec2 w ≠ b) :
    V8 h0 h1 h2 m c b = m ((c : Thread nD τ).loc b) :=
  (after_of_writes_sub hostOps3 (W7 h0 h1 h2 m c) hostOps3_writes fun h => hh (List.mem_append_right _ h)).trans <|
    (W7_of_ne h0 h1 h2 m c b hn.2.2).trans <|
      (after_of_writes_sub hostOps2 (W5 h0 h1 m c) hostOps2_writes fun h => hh (List.mem_append_left _ h)).trans <|
        (W5_of_ne h0 h1 m c b hn.2.1).trans <| (W4_of_ne h0 m c b hn.1).trans (V3_arg m c b hb)

theorem W6_main_v5 (c : Dev nD) :
    (W6 h0 h1 m c (Proc.devRef .tc main_v5) : S50000x128.Idx → EReal)
      = Cert.Spec.aggS (W5 h0 h1 m c (Proc.devRef .tc main_v4)) := by
  show after hostOps2 (W5 h0 h1 m c) (Proc.devRef .tc main_v5) = _
  after_results
  refine funext fun j : S50000x128.Idx => extractStridedSlice_apply _ _ _ j _ fun a => ?_
  match a with
  | ⟨0, _⟩ => exact (Nat.zero_add _).symm
  | ⟨1, _⟩ => exact (Nat.zero_add _).symm

theorem V8_main_v5 (c : Dev nD) :
    (V8 h0 h1 h2 m c main_v5 : S50000x128.Idx → EReal)
      = Cert.Spec.aggS ((h1.dat (V4 h0 m) c).arrAt 3 cfg1.N) :=
  (after_of_writes_sub (r := main_v5) hostOps3 (W7 h0 h1 h2 m c) hostOps3_writes (by decide)).trans <|
    (W7_of_ne h0 h1 h2 m c main_v5 (by decide)).trans <|
      (W6_main_v5 h0 h1 m c).trans (congrArg Cert.Spec.aggS (W5_arr h0 h1 m c 3))

-- A slice from offset zero and a reshape both keep the row number.
theorem V8_main_v8 (c : Dev nD) :
    (V8 h0 h1 h2 m c main_v8 : S50000x1.Idx → EReal)
      = Cert.Spec.cntS ((h2.dat (V6 h0 h1 m) c).arrAt 1 cfg2.N) := by
  show after hostOps3 (W7 h0 h1 h2 m c) (Proc.devRef .tc main_v8) = _
  after_results
  rw [W7_arr h0 h1 h2 m c 1]
  refine funext fun j : S50000x1.Idx => ?_
  have hj0 := idx2_lt0 j
  have hj1 := idx2_lt1 j
  refine (shapeCast_apply _ _ j (ix1 (⟨(j 0).val, hj0⟩ : Fin 50000)) ?_).trans
    (extractStridedSlice_apply _ _ _ _ (ix1 (⟨(j 0).val, by omega⟩ : Fin 50176)) fun a => ?_)
  · rw [Shape.rowMajor_val_one, Shape.rowMajor_val_two]
    show (j 0).val = (j 0).val * 1 + (j 1).val
    omega
  · match a with
    | ⟨0, _⟩ => exact (Nat.zero_add _).symm

theorem agg_eq
    (hv7 : ∀ (V : Ent (F := Ideal)) (c : Dev nD), (h0.dat V c).arrAt 7 cfg0.N
      = Cert.Spec.msg (V c main_arg2) (V c main_v1) (V c main_v2) (V c main_arg3) (V c main_arg4) 0)
    (hv8 : ∀ (V : Ent (F := Ideal)) (c : Dev nD), (h0.dat V c).arrAt 8 cfg0.N
      = Cert.Spec.msg (V c main_arg2) (V c main_v1) (V c main_v2) (V c main_arg5) (V c main_arg6) 1)
    (hv1 : ∀ (V : Ent (F := Ideal)) (c : Dev nD), (h1.dat V c).arrAt 3 cfg1.N
      = Cert.Spec.agg (V c main_arg2) (V c main_v3_0) (V c main_v3_1))
    (c : Dev nD) :
    (h1.dat (V4 h0 m) c).arrAt 3 cfg1.N
      = Cert.Spec.agg (m ((c : Thread nD τ).loc main_arg2))
          (Cert.Spec.msg (m ((c : Thread nD τ).loc main_arg2)) (Cert.Spec.Hpad (m ((c : Thread nD τ).loc main_arg0)))
            (m ((c : Thread nD τ).loc main_arg1)) (m ((c : Thread nD τ).loc main_arg3)) (m ((c : Thread nD τ).loc main_arg4)) 0)
          (Cert.Spec.msg (m ((c : Thread nD τ).loc main_arg2)) (Cert.Spec.Hpad (m ((c : Thread nD τ).loc main_arg0)))
            (m ((c : Thread nD τ).loc main_arg1)) (m ((c : Thread nD τ).loc main_arg5)) (m ((c : Thread nD τ).loc main_arg6)) 1) := by
  rw [hv1 (V4 h0 m) c, V4_main_arg2, V4_main_v3_0, V4_main_v3_1,
    hv7 (V3 m) c, hv8 (V3 m) c, V3_main_v1, V3_main_v2, V3_arg m c main_arg2 (by decide), V3_arg m c main_arg3 (by decide),
    V3_arg m c main_arg4 (by decide), V3_arg m c main_arg5 (by decide), V3_arg m c main_arg6 (by decide)]

theorem cnt_eq
    (hv2 : ∀ (V : Ent (F := Ideal)) (c : Dev nD), (h2.dat V c).arrAt 1 cfg2.N = Cert.Spec.cnt (V c main_arg2))
    (c : Dev nD) :
    (h2.dat (V6 h0 h1 m) c).arrAt 1 cfg2.N = Cert.Spec.cnt (m ((c : Thread nD τ).loc main_arg2)) :=
  (hv2 (V6 h0 h1 m) c).trans <| congrArg Cert.Spec.cnt <|
    (after_of_writes_sub (r := main_arg2) hostOps2 (W5 h0 h1 m c) hostOps2_writes (by decide)).trans <|
      (W5_in h0 h1 m c 0 rfl).trans (V4_main_arg2 h0 m c)

theorem result_eq
    (hv7 : ∀ (V : Ent (F := Ideal)) (c : Dev nD), (h0.dat V c).arrAt 7 cfg0.N
      = Cert.Spec.msg (V c main_arg2) (V c main_v1) (V c main_v2) (V c main_arg3) (V c main_arg4) 0)
    (hv8 : ∀ (V : Ent (F := Ideal)) (c : Dev nD), (h0.dat V c).arrAt 8 cfg0.N
      = Cert.Spec.msg (V c main_arg2) (V c main_v1) (V c main_v2) (V c main_arg5) (V c main_arg6) 1)
    (hv1 : ∀ (V : Ent (F := Ideal)) (c : Dev nD), (h1.dat V c).arrAt 3 cfg1.N
      = Cert.Spec.agg (V c main_arg2) (V c main_v3_0) (V c main_v3_1))
    (hv2 : ∀ (V : Ent (F := Ideal)) (c : Dev nD), (h2.dat V c).arrAt 1 cfg2.N = Cert.Spec.cnt (V c main_arg2))
    (hv3 : ∀ (V : Ent (F := Ideal)) (c : Dev nD), (h3.dat V c).arrAt 5 cfg3.N
      = Cert.Spec.fin (V c main_v5) (V c main_v8) (V c main_arg0) (V c main_arg7) (V c main_arg8))
    (c : Dev nD) :
    (h3.dat (V8 h0 h1 h2 m) c).arrAt 5 cfg3.N
      = Cert.Spec.kernelOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  unfold Cert.Spec.kernelOut
  rw [hv3 (V8 h0 h1 h2 m) c, V8_main_v5, V8_main_v8, V8_arg h0 h1 h2 m c main_arg0 (by decide) (by decide) (by decide),
    V8_arg h0 h1 h2 m c main_arg7 (by decide) (by decide) (by decide), V8_arg h0 h1 h2 m c main_arg8 (by decide) (by decide) (by decide),
    agg_eq h0 h1 m hv7 hv8 hv1 c, cnt_eq h0 h1 h2 m hv2 c]

end Cert.KernelIdeal.Hand

end
-- ==== Proof.RefWords.lean ====
import proofs.«423191_j44616120271607_3_alg».proof.Proof.RefRead
import proofs.«423191_j44616120271607_3_alg».proof.Proof.Spec

noncomputable section

open scoped BigOperators

namespace Cert.RefValue

open Idealize.ShloMosaic Idealize.ShloMosaic.ValueIdx Cert.ReferenceIdeal Cert.ReferenceIdeal.Gen
  Cert.ReferenceIdeal.ReadP Cert.Spec

-- An index is the index of its coordinates (stated at the literal extents).
theorem ix1_eta {n : Nat} (j : (⟨1, ![n]⟩ : Shape).Idx) : j = ix1 (⟨(j 0).val, (j 0).isLt⟩ : Fin n) :=
  eq_ix1 j

theorem ix2_eta {n0 n1 : Nat} (j : (⟨2, ![n0, n1]⟩ : Shape).Idx) :
    j = ix2 (⟨(j 0).val, (j 0).isLt⟩ : Fin n0) (⟨(j 1).val, (j 1).isLt⟩ : Fin n1) := eq_ix2 j

section Words

variable (x2 : (⟨S500000x2, .i32⟩ : BufTy).Contents (Elt Ideal))

-- A column of the pairs, sliced out and flattened, is that column (the slice's stride 1 divides out).
theorem heads_eq (e : Fin 500000) : val_main_v1 (F := Ideal) x2 (ix1 e) = x2 (ix2 e (0 : Fin 2)) := by
  rw [val_main_v1_apply, val_main_v0_apply]
  exact congrArg x2 (funext fun a => Fin.ext (by match a with | ⟨0, _⟩ => exact Nat.div_one _ | ⟨1, _⟩ => rfl))

theorem tails_eq (e : Fin 500000) : val_main_v3 (F := Ideal) x2 (ix1 e) = x2 (ix2 e (1 : Fin 2)) := by
  rw [val_main_v3_apply, val_main_v2_apply]
  exact congrArg x2 (funext fun a => Fin.ext (by match a with | ⟨0, _⟩ => exact Nat.div_one _ | ⟨1, _⟩ => rfl))

end Words

end Cert.RefValue

end
-- ==== Proof.RefTail.lean ====
import proofs.«423191_j44616120271607_3_alg».proof.Proof.RefRead
import proofs.«423191_j44616120271607_3_alg».proof.Proof.Spec
import proofs.«423191_j44616120271607_3_alg».proof.Proof.RefWords

noncomputable section

open scoped BigOperators

namespace Cert.RefValue

open Idealize.ShloMosaic Idealize.ShloMosaic.ValueIdx Cert.ReferenceIdeal Cert.ReferenceIdeal.ReadP Cert.Spec

section Tail

variable (x0 : (⟨S50000x128, .f32⟩ : BufTy).Contents (Elt Ideal)) (x1 : (⟨S500000x128, .f32⟩ : BufTy).Contents (Elt Ideal))
  (x2 : (⟨S500000x2, .i32⟩ : BufTy).Contents (Elt Ideal)) (x3 : (⟨S256x128, .f32⟩ : BufTy).Contents (Elt Ideal))
  (x4 : (⟨S128, .f32⟩ : BufTy).Contents (Elt Ideal)) (x5 : (⟨S256x128, .f32⟩ : BufTy).Contents (Elt Ideal))
  (x6 : (⟨S128, .f32⟩ : BufTy).Contents (Elt Ideal)) (x7 : (⟨S128, .f32⟩ : BufTy).Contents (Elt Ideal))
  (x8 : (⟨S128, .f32⟩ : BufTy).Contents (Elt Ideal))

-- Every layout step reads its operand at an index made of the result's coordinates: name it by them.
theorem pre_eq (v : Fin 50000) (d : Fin 128) :
    val_main_v47 (F := Ideal) x0 x1 x2 x3 x4 x5 x6 (ix2 v d)
      = pre (val_main_v32 (F := Ideal) x0 x1 x2 x3 x4 x5 x6) (val_main_v37 (F := Ideal) x2) x0 v d := by
  rw [val_main_v47_apply, val_main_v46_apply, val_main_v43_apply, val_main_v45_apply, val_main_v44_apply,
    val_main_cst_7_apply, val_main_v42_apply, val_main_cst_6_apply, val_main_v41_apply, val_main_v40_apply,
    val_main_v39_apply, val_main_v38_apply, val_main_cst_5_apply, ix2_eta (idx_main_v40 _)]
  rfl

-- The row sum starts from the word of zero, which is absorbed.
theorem mu_eq (v : Fin 50000) (z : Fin 1) :
    val_main_v51 (F := Ideal) x0 x1 x2 x3 x4 x5 x6 (ix2 v z)
      = mu (val_main_v32 (F := Ideal) x0 x1 x2 x3 x4 x5 x6) (val_main_v37 (F := Ideal) x2) x0 v := by
  rw [val_main_v51_apply, val_main_v50_apply, val_main_cst_9_apply, val_main_v49_apply,
    ix1_eta (idx_main_v49 _), val_main_v48_apply, val_main_cst_8_apply]
  show Ideal.div (Ideal.ofBits .f32 0x00000000#32 + _) _ = _
  rw [Ideal.ofBits_zero_f32, zero_add]
  exact congrArg (Ideal.div · n128) (Finset.sum_congr rfl fun k _ =>
    (congrArg _ (eq_ix2 _)).trans (pre_eq x0 x1 x2 x3 x4 x5 x6 _ _))

theorem var_eq (v : Fin 50000) (z : Fin 1) :
    val_main_v58 (F := Ideal) x0 x1 x2 x3 x4 x5 x6 (ix2 v z)
      = var (val_main_v32 (F := Ideal) x0 x1 x2 x3 x4 x5 x6) (val_main_v37 (F := Ideal) x2) x0 v := by
  rw [val_main_v58_apply, val_main_v57_apply, val_main_cst_11_apply, val_main_v56_apply,
    ix1_eta (idx_main_v56 _), val_main_v55_apply, val_main_cst_10_apply]
  show Ideal.div (Ideal.ofBits .f32 0x00000000#32 + _) _ = _
  rw [Ideal.ofBits_zero_f32, zero_add]
  refine congrArg (Ideal.div · n128) (Finset.sum_congr rfl fun k _ => ?_)
  rw [ix2_eta (idx_main_v55 _ _), val_main_v54_apply, val_main_v53_apply, val_main_v52_apply,
    ix2_eta (idx_main_v52 _), mu_eq, pre_eq]
  exact Ideal.mulf_def _ _

theorem tail_eq :
    val_main_v71 (F := Ideal) x0 x1 x2 x3 x4 x5 x6 x7 x8
      = fin (val_main_v32 (F := Ideal) x0 x1 x2 x3 x4 x5 x6) (val_main_v37 (F := Ideal) x2) x0 x7 x8 := by
  funext i
  obtain ⟨v, d, rfl⟩ : ∃ (v : Fin 50000) (d : Fin 128), i = ix2 v d := ⟨i 0, i 1, eq_ix2 i⟩
  rw [val_main_v71_apply, val_main_v70_apply, val_main_v69_apply, ix1_eta (idx_main_v69 _), val_main_v68_apply,
    val_main_v67_apply, ix2_eta (idx_main_v67 _), val_main_v66_apply, val_main_v65_apply, val_main_v64_apply,
    val_main_cst_12_apply, var_eq, val_main_v63_apply, val_main_v62_apply, val_main_v61_apply,
    ix1_eta (idx_main_v61 _), val_main_v60_apply, val_main_v59_apply, ix2_eta (idx_main_v59 _), mu_eq, pre_eq]
  rfl

end Tail

end Cert.RefValue

end
-- ==== Proof.LibRowsScatter.lean ====
import Idealize.ShloMosaic.PureOps.Ideal
import Idealize.ShloMosaic.Lib.ValueIdx

noncomputable section

open scoped BigOperators

namespace Cert.LibRowsScatter

open Idealize.ShloMosaic Idealize.ShloMosaic.ValueIdx

-- An update lands on an index exactly when start plus window coordinate is that index on every axis.
theorem landing_iff {s si u : Shape} {w : Nat} (d : ScatterDims s si u) (j : u.Idx) (idx : IVec si w) (i : s.Idx) :
    d.resultIdx? j idx = some i ↔ ∀ a, d.start j idx a + d.window j a = ((i a).val : ℤ) := by
  unfold ScatterDims.resultIdx?
  constructor
  · intro h a
    split at h
    · rename_i hr
      have e : (d.start j idx a + d.window j a).toNat = (i a).val :=
        congrArg Fin.val (congrFun (Option.some.inj h) a)
      have := (hr a).1
      omega
    · cases h
  · intro h
    rw [dif_pos fun a => by rw [h a]; exact ⟨Int.natCast_nonneg _, Int.ofNat_lt.mpr (i a).isLt⟩]
    exact congrArg some (funext fun a => Fin.ext (by
      show (d.start j idx a + d.window j a).toNat = _
      rw [h a]; exact Int.toNat_natCast _))

section Coordinates

variable {φ : FTy} {N E D w : Nat}
  (s : ScatterDims (⟨2, ![N, D]⟩ : Shape) (⟨2, ![E, 1]⟩ : Shape) (⟨2, ![E, D]⟩ : Shape))
  (huw : s.updateWindowDims = [1]) (hiw : s.insertedWindowDims = [0])
  (hsd : s.scatterDimsToOperandDims = [0]) (hiv : s.indexVectorDim = 1)

include huw hiw hsd hiv

theorem start_row (idx : IVec (⟨2, ![E, 1]⟩ : Shape) w) (e : Fin E) (c' : Fin D) :
    s.start (ix2 e c') idx 0 = (idx (ix2 e (0 : Fin 1))).toInt := by
  obtain ⟨uw, iw, sd, iv, wf⟩ := s
  subst huw hiw hsd hiv
  unfold ScatterDims.start
  rw [dif_pos (List.mem_singleton.mpr rfl)]
  refine congrArg (fun i => (idx i).toInt) (funext fun b => Fin.ext ?_)
  match b with
  | ⟨0, _⟩ => rfl
  | ⟨1, _⟩ => rfl

theorem start_col (idx : IVec (⟨2, ![E, 1]⟩ : Shape) w) (e : Fin E) (c' : Fin D) :
    s.start (ix2 e c') idx 1 = 0 := by
  obtain ⟨uw, iw, sd, iv, wf⟩ := s
  subst huw hiw hsd hiv
  exact dif_neg fun h => Nat.one_ne_zero (congrArg Fin.val (List.mem_singleton.mp h))

-- The row axis is inserted (window coordinate 0); the column axis carries the update's column.
theorem window_eq (e : Fin E) (c' : Fin D) : s.window (ix2 e c') 0 = 0 ∧ s.window (ix2 e c') 1 = c'.val := by
  obtain ⟨uw, iw, sd, iv, wf⟩ := s
  subst huw hiw hsd hiv
  exact ⟨rfl, rfl⟩

theorem resultIdx?_eq_some_iff (idx : IVec (⟨2, ![E, 1]⟩ : Shape) w) (e : Fin E) (c' : Fin D) (v : Fin N)
    (c : Fin D) :
    s.resultIdx? (ix2 e c') idx = some (ix2 v c) ↔ (idx (ix2 e (0 : Fin 1))).toInt = (v.val : ℤ) ∧ c' = c := by
  obtain ⟨w0, w1⟩ := window_eq s huw hiw hsd hiv e c'
  rw [landing_iff, Fin.forall_fin_two, start_row s huw hiw hsd hiv, start_col s huw hiw hsd hiv, w0, w1, Fin.ext_iff]
  show _ + ((0 : ℕ) : ℤ) = (v.val : ℤ) ∧ (0 : ℤ) + (c'.val : ℤ) = (c.val : ℤ) ↔ _
  omega

-- Of the updates of row e only column c can land on (v, c), and it does when the signed index of e is v.
theorem rowsScatterAdd_apply
    (x : FVec Ideal (⟨2, ![N, D]⟩ : Shape) φ) (idx : IVec (⟨2, ![E, 1]⟩ : Shape) w)
    (upd : FVec Ideal (⟨2, ![E, D]⟩ : Shape) φ) (v : Fin N) (c : Fin D) :
    Host.scatterAdd s x idx upd (ix2 v c)
      = x (ix2 v c) + ∑ e : Fin E, if (idx (ix2 e (0 : Fin 1))).toInt = (v.val : ℤ) then upd (ix2 e c) else 0 := by
  have hl := resultIdx?_eq_some_iff s huw hiw hsd hiv idx
  refine congrArg (x (ix2 v c) + ·) ?_
  rw [Finset.sum_filter, sum_idx2]
  refine Finset.sum_congr rfl fun e _ => ?_
  rw [Finset.sum_eq_single c (fun c' _ hc => if_neg fun h => hc ((hl e c' v c).mp h).2)
    fun h => absurd (Finset.mem_univ _) h]
  exact if_congr ((hl e c v c).trans (and_iff_left rfl)) rfl rfl

end Coordinates

end Cert.LibRowsScatter

end
-- ==== Proof.LibVecScatter.lean ====
import Idealize.ShloMosaic.PureOps.Ideal
import Idealize.ShloMosaic.Lib.ValueIdxRank1
import proofs.«423191_j44616120271607_3_alg».proof.Proof.LibRowsScatter

noncomputable section

open scoped BigOperators

namespace Cert.LibVecScatter

open Idealize.ShloMosaic Idealize.ShloMosaic.ValueIdx

section Landing

variable {φ : FTy} {N E w : Nat}
  (s : ScatterDims (⟨1, ![N]⟩ : Shape) (⟨2, ![E, 1]⟩ : Shape) (⟨1, ![E]⟩ : Shape))
  (huw : s.updateWindowDims = []) (hiw : s.insertedWindowDims = [0])
  (hsd : s.scatterDimsToOperandDims = [0]) (hiv : s.indexVectorDim = 1)

include huw hiw hsd hiv

-- The one axis is inserted and addressed: the landing coordinate is the signed index word itself.
theorem landing_coord (idx : IVec (⟨2, ![E, 1]⟩ : Shape) w) (e : Fin E) :
    s.start (ix1 e) idx 0 + (s.window (ix1 e) 0 : ℤ) = (idx (ix2 e (0 : Fin 1))).toInt := by
  obtain ⟨uw, iw, sd, iv, wf⟩ := s
  subst huw hiw hsd hiv
  refine (Int.add_zero _).trans ?_
  unfold ScatterDims.start
  rw [dif_pos (List.mem_singleton.mpr rfl)]
  refine congrArg (fun i => (idx i).toInt) (funext fun b => Fin.ext ?_)
  match b with
  | ⟨0, _⟩ => rfl
  | ⟨1, _⟩ => rfl

theorem resultIdx?_eq_some_iff (idx : IVec (⟨2, ![E, 1]⟩ : Shape) w) (e : Fin E) (v : Fin N) :
    s.resultIdx? (ix1 e) idx = some (ix1 v) ↔ (idx (ix2 e (0 : Fin 1))).toInt = (v.val : ℤ) := by
  rw [Cert.LibRowsScatter.landing_iff, Fin.forall_fin_one, landing_coord s huw hiw hsd hiv]

theorem vecScatterAdd_apply
    (x : FVec Ideal (⟨1, ![N]⟩ : Shape) φ) (idx : IVec (⟨2, ![E, 1]⟩ : Shape) w)
    (upd : FVec Ideal (⟨1, ![E]⟩ : Shape) φ) (v : Fin N) :
    Host.scatterAdd s x idx upd (ix1 v)
      = x (ix1 v) + ∑ e : Fin E, if (idx (ix2 e (0 : Fin 1))).toInt = (v.val : ℤ) then upd (ix1 e) else 0 := by
  refine congrArg (x (ix1 v) + ·) ?_
  rw [Finset.sum_filter, ← Equiv.sum_comp idxEquiv1.symm]
  exact Finset.sum_congr rfl fun e _ => if_congr (resultIdx?_eq_some_iff s huw hiw hsd hiv idx e v) rfl rfl

end Landing

end Cert.LibVecScatter

end
-- ==== Proof.RefAgg.lean ====
import proofs.«423191_j44616120271607_3_alg».proof.Proof.RefRead
import proofs.«423191_j44616120271607_3_alg».proof.Proof.Spec
import proofs.«423191_j44616120271607_3_alg».proof.Proof.LibRowsScatter
import proofs.«423191_j44616120271607_3_alg».proof.Proof.LibVecScatter
import proofs.«423191_j44616120271607_3_alg».proof.Proof.RefWords

noncomputable section

open scoped BigOperators

namespace Cert.RefValue

open Idealize.ShloMosaic Idealize.ShloMosaic.ValueIdx Cert.ReferenceIdeal Cert.ReferenceIdeal.Gen
  Cert.ReferenceIdeal.ReadP Cert.Spec

section Words

variable (x2 : (⟨S500000x2, .i32⟩ : BufTy).Contents (Elt Ideal))

-- The tails laid before the heads, read at a stacked position.
theorem dst_eq (j : Fin 1000000) : val_main_v28 (F := Ideal) x2 (ix1 j) = dst x2 j := by
  unfold val_main_v28 dst
  by_cases h : j.val < 500000
  · rw [dif_pos h]
    exact (concatenate_pair_apply_left (0 : Fin S1000000.rank) (val_main_v3 (F := Ideal) x2)
      (val_main_v1 (F := Ideal) x2) concatenates_S500000_S500000_S1000000_d0 (ix1 j) rfl (ix1 (⟨j.val, h⟩ : Fin 500000))
      fun b => by match b with | ⟨0, _⟩ => rfl).trans (tails_eq x2 _)
  · rw [dif_neg h]
    have hj := j.isLt
    exact (concatenate_pair_apply_right (0 : Fin S1000000.rank) (val_main_v3 (F := Ideal) x2)
      (val_main_v1 (F := Ideal) x2) concatenates_S500000_S500000_S1000000_d0 (ix1 j) rfl rfl
      (ix1 (⟨j.val - 500000, by omega⟩ : Fin 500000))
      (fun b => by match b with | ⟨0, _⟩ => exact fun hb => absurd rfl hb)
      (by show j.val - 500000 + 500000 = j.val; omega)).trans (heads_eq x2 _)

theorem cnt_eq : val_main_v37 (F := Ideal) x2 = refCnt x2 := by
  funext i
  rw [val_main_v37_apply, ix1_eta (idx_main_v37 _)]
  unfold val_main_v36
  rw [Cert.LibVecScatter.vecScatterAdd_apply scatter_S50000_S1000000x1_S1000000_n_0_0_1 rfl rfl rfl rfl,
    val_main_v34_apply, val_main_cst_4_apply]
  refine congrArg (_ + ·) (Finset.sum_congr rfl fun j _ => ?_)
  rw [val_main_v35_apply, ix1_eta (idx_main_v35 _), dst_eq, val_main_v33_apply, val_main_cst_3_apply]
  rfl

end Words

section Sums

variable (x0 : (⟨S50000x128, .f32⟩ : BufTy).Contents (Elt Ideal)) (x1 : (⟨S500000x128, .f32⟩ : BufTy).Contents (Elt Ideal))
  (x2 : (⟨S500000x2, .i32⟩ : BufTy).Contents (Elt Ideal)) (x3 : (⟨S256x128, .f32⟩ : BufTy).Contents (Elt Ideal))
  (x4 : (⟨S128, .f32⟩ : BufTy).Contents (Elt Ideal)) (x5 : (⟨S256x128, .f32⟩ : BufTy).Contents (Elt Ideal))
  (x6 : (⟨S128, .f32⟩ : BufTy).Contents (Elt Ideal))

-- The forward messages laid before the backward ones, read at a stacked position.
theorem stk_eq (j : Fin 1000000) (c : Fin 128) :
    val_main_v29 (F := Ideal) x0 x1 x2 x3 x4 x5 x6 (ix2 j c)
      = stk (val_main_v15 (F := Ideal) x0 x1 x2 x3 x4) (val_main_v27 (F := Ideal) x0 x1 x2 x5 x6) j c := by
  unfold val_main_v29 stk
  by_cases h : j.val < 500000
  · rw [dif_pos h]
    exact concatenate_pair_apply_left (0 : Fin S1000000x128.rank) (val_main_v15 (F := Ideal) x0 x1 x2 x3 x4)
      (val_main_v27 (F := Ideal) x0 x1 x2 x5 x6) concatenates_S500000x128_S500000x128_S1000000x128_d0 (ix2 j c) rfl
      (ix2 (⟨j.val, h⟩ : Fin 500000) c) fun b => by match b with | ⟨0, _⟩ => rfl | ⟨1, _⟩ => rfl
  · rw [dif_neg h]
    have hj := j.isLt
    exact concatenate_pair_apply_right (0 : Fin S1000000x128.rank) (val_main_v15 (F := Ideal) x0 x1 x2 x3 x4)
      (val_main_v27 (F := Ideal) x0 x1 x2 x5 x6) concatenates_S500000x128_S500000x128_S1000000x128_d0 (ix2 j c) rfl rfl
      (ix2 (⟨j.val - 500000, by omega⟩ : Fin 500000) c)
      (fun b => by match b with | ⟨0, _⟩ => exact fun hb => absurd rfl hb | ⟨1, _⟩ => exact fun _ => rfl)
      (by show j.val - 500000 + 500000 = j.val; omega)

theorem agg_eq :
    val_main_v32 (F := Ideal) x0 x1 x2 x3 x4 x5 x6
      = refAgg x2 (val_main_v15 (F := Ideal) x0 x1 x2 x3 x4) (val_main_v27 (F := Ideal) x0 x1 x2 x5 x6) := by
  funext i
  obtain ⟨v, c, rfl⟩ : ∃ (v : Fin 50000) (c : Fin 128), i = ix2 v c := ⟨i 0, i 1, eq_ix2 i⟩
  unfold val_main_v32
  rw [Cert.LibRowsScatter.rowsScatterAdd_apply scatter_S50000x128_S1000000x1_S1000000x128_1_0_0_1 rfl rfl rfl rfl,
    val_main_v30_apply, val_main_cst_apply]
  refine congrArg (_ + ·) (Finset.sum_congr rfl fun j _ => ?_)
  rw [val_main_v31_apply, ix1_eta (idx_main_v31 _), dst_eq, stk_eq]

end Sums

end Cert.RefValue

end
-- ==== Proof.LibRowGather.lean ====
import Idealize.ShloMosaic.PureOps.Ideal
import Idealize.ShloMosaic.Lib.ValueIdx

noncomputable section

namespace Cert.LibRowGather

open Idealize.ShloMosaic Idealize.ShloMosaic.ValueIdx

section Coordinates

variable {α : Type} {N D R w : Nat}
  (g : GatherDims (⟨2, ![N, D]⟩ : Shape) (⟨2, ![R, 1]⟩ : Shape) (⟨2, ![R, D]⟩ : Shape))
  (hod : g.offsetDims = [1]) (hcd : g.collapsedSliceDims = [0]) (hob : g.operandBatchingDims = [])
  (hsb : g.startIndicesBatchingDims = []) (hsm : g.startIndexMap = [0]) (hiv : g.indexVectorDim = 1)
  (hss : g.sliceSizes = ![1, D])

include hod hcd hob hsb hsm hiv hss

theorem start_row (idx : IVec (⟨2, ![R, 1]⟩ : Shape) w) (e : Fin R) (k : Fin D) :
    g.start (ix2 e k) idx 0 = min (idx (ix2 e (0 : Fin 1))).toInt.toNat (N - 1) := by
  obtain ⟨od, cd, ob, sb, sm, iv, ss, wf⟩ := g
  subst hod hcd hob hsb hsm hiv hss
  unfold GatherDims.start
  rw [dif_pos (List.mem_singleton.mpr rfl)]
  refine congrArg (fun i => min (idx i).toInt.toNat (N - 1)) (funext fun b => Fin.ext ?_)
  match b with
  | ⟨0, _⟩ => rfl
  | ⟨1, _⟩ => rfl

theorem start_col (idx : IVec (⟨2, ![R, 1]⟩ : Shape) w) (e : Fin R) (k : Fin D) :
    g.start (ix2 e k) idx 1 = 0 := by
  obtain ⟨od, cd, ob, sb, sm, iv, ss, wf⟩ := g
  subst hod hcd hob hsb hsm hiv hss
  exact dif_neg fun h => Nat.one_ne_zero (congrArg Fin.val (List.mem_singleton.mp h))

-- No batching axis; the collapsed row axis has no offset, the column axis has the result's column as offset.
theorem rowGather_apply
    (x : (⟨2, ![N, D]⟩ : Shape).Idx → α) (idx : IVec (⟨2, ![R, 1]⟩ : Shape) w) (e : Fin R) (k : Fin D)
    (hrow : min (idx (ix2 e (0 : Fin 1))).toInt.toNat (N - 1) < N) :
    Host.gather g x idx (ix2 e k) = x (ix2 ⟨min (idx (ix2 e (0 : Fin 1))).toInt.toNat (N - 1), hrow⟩ k) := by
  have hb : ∀ a, g.batchCoord (ix2 e k) a = 0 := fun a =>
    g.batchCoord_eq_zero _ a (by rw [hob]; exact List.not_mem_nil)
  have o0 : g.offCoord (ix2 e k) 0 = 0 :=
    g.offCoord_eq_zero _ 0 fun h => ((g.mem_sKept 0).mp h).1 (by rw [hcd]; exact List.mem_singleton.mpr rfl)
  have o1 : g.offCoord (ix2 e k) 1 = k.val := by
    obtain ⟨od, cd, ob, sb, sm, iv, ss, wf⟩ := g
    subst hod hcd hob hsb hsm hiv hss
    rfl
  have hall : ∀ a : Fin 2, (g.operandIdx (ix2 e k) idx a).val
      = ((ix2 (⟨min (idx (ix2 e (0 : Fin 1))).toInt.toNat (N - 1), hrow⟩ : Fin N) k : (⟨2, ![N, D]⟩ : Shape).Idx) a).val :=
    Fin.forall_fin_two.mpr
      ⟨congrArg₂ (· + ·) (congrArg₂ (· + ·) (start_row g hod hcd hob hsb hsm hiv hss idx e k) (hb 0)) o0,
        (congrArg₂ (· + ·) (congrArg₂ (· + ·) (start_col g hod hcd hob hsb hsm hiv hss idx e k) (hb 1)) o1).trans
          (Nat.zero_add _)⟩
  unfold Host.gather
  exact congrArg x (funext fun a => Fin.ext (hall a))

end Coordinates

end Cert.LibRowGather

end
-- ==== Proof.RefMsg.lean ====
import proofs.«423191_j44616120271607_3_alg».proof.Proof.RefRead
import proofs.«423191_j44616120271607_3_alg».proof.Proof.Spec
import proofs.«423191_j44616120271607_3_alg».proof.Proof.LibRowGather
import proofs.«423191_j44616120271607_3_alg».proof.Proof.RefWords
import Idealize.ShloMosaic.Lib.StableHlo.Predicate

noncomputable section

open scoped BigOperators

namespace Cert.RefValue

open Idealize.ShloMosaic Idealize.ShloMosaic.ValueIdx Cert.ReferenceIdeal Cert.ReferenceIdeal.Gen
  Cert.ReferenceIdeal.ReadP Cert.Spec

-- The select on "the word is negative" between the raised word and the word.
theorem raised_eq (a : BitVec 32) :
    Scalar.select (IntOp.cmpi .slt a 0#32) (IntOp.addi a 50000#32) a
      = if a.toInt < 0 then a + 50000#32 else a := by
  show (if BitVec.ofBool (a.slt 0#32) = 1 then a + 50000#32 else a) = _
  exact if_congr ((StableHlo.Predicate.ofBool_eq_one_iff _).trans
    (BitVec.slt_iff_toInt_lt.trans (by rw [BitVec.toInt_zero]))) rfl rfl

section Messages

variable (x0 : (⟨S50000x128, .f32⟩ : BufTy).Contents (Elt Ideal)) (x1 : (⟨S500000x128, .f32⟩ : BufTy).Contents (Elt Ideal))
  (x2 : (⟨S500000x2, .i32⟩ : BufTy).Contents (Elt Ideal)) (x3 : (⟨S256x128, .f32⟩ : BufTy).Contents (Elt Ideal))
  (x4 : (⟨S128, .f32⟩ : BufTy).Contents (Elt Ideal)) (x5 : (⟨S256x128, .f32⟩ : BufTy).Contents (Elt Ideal))
  (x6 : (⟨S128, .f32⟩ : BufTy).Contents (Elt Ideal))

-- When the start words are a column's words raised where negative, the gather reads the row `grow` of the word.
theorem row_eq (col : Fin 2) (iw : (⟨S500000x1, .i32⟩ : BufTy).Contents (Elt Ideal))
    (hw : ∀ e : Fin 500000, iw (ix2 e (0 : Fin 1))
      = if (x2 (ix2 e col)).toInt < 0 then x2 (ix2 e col) + 50000#32 else x2 (ix2 e col))
    (e : Fin 500000) (k : Fin 128) :
    Host.gather gather_S50000x128_S500000x1_S500000x128_1_0_n_n_0_1_1128 x0 iw (ix2 e k)
      = x0 (ix2 (grow (x2 (ix2 e col))) k) := by
  rw [Cert.LibRowGather.rowGather_apply _ rfl rfl rfl rfl rfl rfl rfl x0 iw e k (by omega)]
  refine congrArg (fun r => x0 (ix2 r k)) (Fin.ext ?_)
  show min (iw (ix2 e (0 : Fin 1))).toInt.toNat (50000 - 1) = _
  rw [hw]
  rfl

-- A gathered row laid before the edge features, read at an entry.
theorem cat_eq (col : Fin 2) (G : (⟨S500000x128, .f32⟩ : BufTy).Contents (Elt Ideal))
    (hG : ∀ (e : Fin 500000) (k : Fin 128), G (ix2 e k) = x0 (ix2 (grow (x2 (ix2 e col))) k))
    (e : Fin 500000) (k : Fin 256) :
    concatenate S500000x256 1 [⟨S500000x128, G⟩, ⟨S500000x128, x1⟩]
        concatenates_S500000x128_S500000x128_S500000x256_d1 (ix2 e k)
      = if h : k.val < 128 then x0 (ix2 (grow (x2 (ix2 e col))) ⟨k.val, h⟩)
        else x1 (ix2 e ⟨k.val - 128, by have := k.isLt; omega⟩) := by
  by_cases h : k.val < 128
  · rw [dif_pos h]
    exact (concatenate_pair_apply_left (1 : Fin S500000x256.rank) G x1
      concatenates_S500000x128_S500000x128_S500000x256_d1 (ix2 e k) rfl (ix2 e (⟨k.val, h⟩ : Fin 128))
      (fun b => by match b with | ⟨0, _⟩ => rfl | ⟨1, _⟩ => rfl)).trans (hG e _)
  · rw [dif_neg h]
    have hk := k.isLt
    exact concatenate_pair_apply_right (1 : Fin S500000x256.rank) G x1
      concatenates_S500000x128_S500000x128_S500000x256_d1 (ix2 e k) rfl rfl
      (ix2 e (⟨k.val - 128, by omega⟩ : Fin 128))
      (fun b => by match b with | ⟨0, _⟩ => exact fun _ => rfl | ⟨1, _⟩ => exact fun hb => absurd rfl hb)
      (by show k.val - 128 + 128 = k.val; omega)

theorem fwd_msg_eq : val_main_v15 (F := Ideal) x0 x1 x2 x3 x4 = refMsg x2 x0 x1 x3 x4 0 := by
  funext i
  rw [val_main_v15_apply, val_main_v12_apply, val_main_v14_apply, val_main_v13_apply, ix1_eta (idx_main_v13 _)]
  refine congrArg₂ (· + ·) (Finset.sum_congr rfl fun k _ => ?_) rfl
  rw [ix2_eta (lidx_main_v12 i k), ix2_eta (ridx_main_v12 i k)]
  exact congrArg (· * _) (cat_eq x0 x1 x2 0 _ (row_eq x0 x2 0 _ fun e => by
    rw [val_main_v9_apply, ix1_eta (idx_main_v9 _), val_main_v8_apply, val_main_v5_apply, val_main_v4_apply,
      val_main_c_apply, val_main_v7_apply, val_main_v6_apply, val_main_c_0_apply, heads_eq]
    exact raised_eq _) (i 0) k)

theorem bwd_msg_eq : val_main_v27 (F := Ideal) x0 x1 x2 x5 x6 = refMsg x2 x0 x1 x5 x6 1 := by
  funext i
  rw [val_main_v27_apply, val_main_v24_apply, val_main_v26_apply, val_main_v25_apply, ix1_eta (idx_main_v25 _)]
  refine congrArg₂ (· + ·) (Finset.sum_congr rfl fun k _ => ?_) rfl
  rw [ix2_eta (lidx_main_v24 i k), ix2_eta (ridx_main_v24 i k)]
  exact congrArg (· * _) (cat_eq x0 x1 x2 1 _ (row_eq x0 x2 1 _ fun e => by
    rw [val_main_v21_apply, ix1_eta (idx_main_v21 _), val_main_v20_apply, val_main_v17_apply, val_main_v16_apply,
      val_main_c_1_apply, val_main_v19_apply, val_main_v18_apply, val_main_c_2_apply, tails_eq]
    exact raised_eq _) (i 0) k)

end Messages

end Cert.RefValue

end
-- ==== Proof.Ref.lean ====
import proofs.«423191_j44616120271607_3_alg».proof.Proof.RefTail
import proofs.«423191_j44616120271607_3_alg».proof.Proof.RefAgg
import proofs.«423191_j44616120271607_3_alg».proof.Proof.RefMsg

noncomputable section

namespace Cert.RefValue

open Idealize.ShloMosaic Cert.ReferenceIdeal Cert.ReferenceIdeal.ReadP Cert.Spec

theorem ref_eq (x0 : (⟨S50000x128, .f32⟩ : BufTy).Contents (Elt Ideal)) (x1 : (⟨S500000x128, .f32⟩ : BufTy).Contents (Elt Ideal))
    (x2 : (⟨S500000x2, .i32⟩ : BufTy).Contents (Elt Ideal)) (x3 : (⟨S256x128, .f32⟩ : BufTy).Contents (Elt Ideal))
    (x4 : (⟨S128, .f32⟩ : BufTy).Contents (Elt Ideal)) (x5 : (⟨S256x128, .f32⟩ : BufTy).Contents (Elt Ideal))
    (x6 : (⟨S128, .f32⟩ : BufTy).Contents (Elt Ideal)) (x7 : (⟨S128, .f32⟩ : BufTy).Contents (Elt Ideal))
    (x8 : (⟨S128, .f32⟩ : BufTy).Contents (Elt Ideal)) :
    val_main_v71 (F := Ideal) x0 x1 x2 x3 x4 x5 x6 x7 x8 = refOut x0 x1 x2 x3 x4 x5 x6 x7 x8 := by
  rw [tail_eq, agg_eq, cnt_eq, fwd_msg_eq, bwd_msg_eq]
  rfl

end Cert.RefValue

end
-- ==== Proof.Alg1.lean ====
import proofs.«423191_j44616120271607_3_alg».proof.Proof.Spec

noncomputable section

open scoped BigOperators

namespace Cert.Alg

open Cert.Spec Idealize.ShloMosaic Idealize.ShloMosaic.ValueIdx

-- A word whose signed reading is nonnegative has its sign bit clear, so both readings agree.
theorem toInt_eq_toNat (a : BitVec 32) (h0 : 0 ≤ a.toInt) : a.toInt = (a.toNat : ℤ) := by
  have h := a.isLt
  rw [BitVec.toInt_eq_toNat_cond] at h0 ⊢
  by_cases hc : 2 * a.toNat < 2 ^ 32
  · exact if_pos hc
  · rw [if_neg hc] at h0; omega

theorem toNat_lt (a : BitVec 32) (h0 : 0 ≤ a.toInt) (h1 : a.toInt < 50000) : a.toNat < 50000 := by
  rw [toInt_eq_toNat a h0] at h1
  omega

theorem oh_eq_toNat (a : BitVec 32) (v : ℕ) (hv : v < 2 ^ 32) :
    oh a v = if a.toNat = v then 1 else 0 :=
  if_congr (by rw [BitVec.toNat_eq, BitVec.toNat_ofNat, Nat.mod_eq_of_lt hv]) rfl rfl

theorem oh_eq_toInt (a : BitVec 32) (h0 : 0 ≤ a.toInt) (v : ℕ) (hv : v < 2 ^ 32) :
    oh a v = if a.toInt = (v : ℤ) then 1 else 0 := by
  rw [oh_eq_toNat a v hv, toInt_eq_toNat a h0]
  exact if_congr Nat.cast_inj.symm rfl rfl

theorem oh_mul (a : BitVec 32) (h0 : 0 ≤ a.toInt) (v : ℕ) (hv : v < 2 ^ 32) (x : EReal) :
    oh a v * x = if a.toInt = (v : ℤ) then x else 0 := by
  rw [oh_eq_toInt a h0 v hv, ite_mul, one_mul, zero_mul]

-- In range no word is raised and the clamp does nothing.
theorem grow_eq (a : BitVec 32) (h0 : 0 ≤ a.toInt) (h1 : a.toInt < 50000) :
    grow a = ⟨a.toNat, toNat_lt a h0 h1⟩ := by
  have hn := toNat_lt a h0 h1
  refine Fin.ext ?_
  show min (if a.toInt < 0 then a + 50000#32 else a).toInt.toNat 49999 = a.toNat
  rw [if_neg (not_lt.mpr h0), toInt_eq_toNat a h0, Int.toNat_natCast]
  omega

end Cert.Alg

end
-- ==== Proof.Alg2.lean ====
import proofs.«423191_j44616120271607_3_alg».proof.Proof.Spec

noncomputable section

open scoped BigOperators

namespace Cert.Alg

open Cert.Spec Idealize.ShloMosaic Idealize.ShloMosaic.ValueIdx

-- Every number below m * n is n * b + r for exactly one b < m and r < n.
theorem sum_blocks {m n N : ℕ} (hN : m * n = N) (h : ∀ (b : Fin m) (r : Fin n), n * b.val + r.val < N)
    (f : Fin N → EReal) : ∑ b : Fin m, ∑ r : Fin n, f ⟨n * b.val + r.val, h b r⟩ = ∑ e, f e := by
  rw [← Fintype.sum_prod_type']
  refine Fintype.sum_equiv (finProdFinEquiv.trans (finCongr hN)) _ _ fun x => congrArg f (Fin.ext ?_)
  simp only [Equiv.trans_apply, finProdFinEquiv_apply_val, finCongr_apply, Fin.coe_cast]
  exact Nat.add_comm _ _

theorem sum_chunk (t : ℕ) (ht : t < 50176) (f : Fin 50176 → EReal) :
    ∑ n : Fin 49, ∑ j : Fin 1024, (if t = 1024 * n.val + j.val then (1 : EReal) else 0) * f (prow n j)
      = f ⟨t, ht⟩ := by
  refine (sum_blocks (by norm_num) (fun n j => (prow n j).isLt)
    fun r => (if t = r.val then (1 : EReal) else 0) * f r).trans ?_
  rw [Finset.sum_eq_single ⟨t, ht⟩ (fun r _ hr => by rw [if_neg fun h => hr (Fin.ext h.symm), zero_mul])
    fun h => absurd (Finset.mem_univ _) h, if_pos rfl, one_mul]

theorem sum_edge (f : Fin 500000 → EReal) :
    ∑ b : Fin 250, ∑ r : Fin 2000, f (edge b r) = ∑ e : Fin 500000, f e :=
  sum_blocks (by norm_num) (fun b r => (edge b r).isLt) f

theorem sum_halves (g : Fin 1000000 → EReal) :
    ∑ j : Fin 1000000, g j
      = (∑ i : Fin 500000, g ⟨i.val, by have := i.isLt; omega⟩)
        + ∑ i : Fin 500000, g ⟨i.val + 500000, by have := i.isLt; omega⟩ := by
  rw [← Equiv.sum_comp (finCongr (by norm_num : 500000 + 500000 = 1000000)) g, Fin.sum_univ_add]
  exact congrArg₂ (· + ·) rfl (Finset.sum_congr rfl fun i _ => congrArg g (Fin.ext (Nat.add_comm _ _)))

end Cert.Alg

end
-- ==== Proof.Alg3.lean ====
import proofs.«423191_j44616120271607_3_alg».proof.Proof.Alg1
import proofs.«423191_j44616120271607_3_alg».proof.Proof.Alg2

noncomputable section

open scoped BigOperators

namespace Cert.Alg

open Cert.Spec Idealize.ShloMosaic Idealize.ShloMosaic.ValueIdx

-- The one-hot product against the padded table, summed chunk by chunk, reads the table at the word's number.
theorem gath_eq (ht : (⟨2, ![500000, 2]⟩ : Shape).Idx → BitVec 32)
    (Hp : (⟨2, ![50176, 128]⟩ : Shape).Idx → EReal) (col : Fin 2) (e : Fin 500000) (k : Fin 128)
    (h0 : 0 ≤ (ht (ix2 e col)).toInt) (h1 : (ht (ix2 e col)).toInt < 50000) :
    gath ht Hp col e k
      = Hp (ix2 (⟨(ht (ix2 e col)).toNat, by have := toNat_lt _ h0 h1; omega⟩ : Fin 50176) k) := by
  have hn := toNat_lt _ h0 h1
  rw [← sum_chunk (ht (ix2 e col)).toNat (by omega) fun r => Hp (ix2 r k)]
  exact Finset.sum_congr rfl fun n _ => Finset.sum_congr rfl fun j _ => by
    rw [oh_eq_toNat _ _ (by have := n.isLt; have := j.isLt; omega)]

theorem msg_eq (ht : (⟨2, ![500000, 2]⟩ : Shape).Idx → BitVec 32) (hr : InRange ht)
    (H : (⟨2, ![50000, 128]⟩ : Shape).Idx → EReal) (E : (⟨2, ![500000, 128]⟩ : Shape).Idx → EReal)
    (W : (⟨2, ![256, 128]⟩ : Shape).Idx → EReal) (b : (⟨1, ![128]⟩ : Shape).Idx → EReal) (col : Fin 2) :
    msg ht (Hpad H) E W b col = refMsg ht H E W b col := by
  funext i
  refine congrArg (· + b (ix1 (i 1))) (Finset.sum_congr rfl fun k _ => congrArg (· * W (ix2 k (i 1))) ?_)
  unfold cat
  by_cases h : k.val < 128
  · obtain ⟨h0, h1⟩ := hr (i 0) col
    rw [dif_pos h, dif_pos h, gath_eq ht (Hpad H) col (i 0) ⟨k.val, h⟩ h0 h1, grow_eq _ h0 h1]
    exact dif_pos (toNat_lt _ h0 h1)
  · rw [dif_neg h, dif_neg h]

end Cert.Alg

end
-- ==== Proof.Alg4.lean ====
import proofs.«423191_j44616120271607_3_alg».proof.Proof.Alg1
import proofs.«423191_j44616120271607_3_alg».proof.Proof.Alg2

noncomputable section

open scoped BigOperators

namespace Cert.Alg

open Cert.Spec Idealize.ShloMosaic Idealize.ShloMosaic.ValueIdx

theorem zero32_eq : zero32 = 0 := Ideal.ofBits_zero_f32

theorem one32_eq : Ideal.ofBits .f32 0x3F800000#32 = 1 := by
  simp [Ideal.ofBits, Ideal.ieee, -EReal.coe_mul]
  norm_num

-- A choice between two families by "below half a million", read in the second half.
theorem half_hi {α : Type} (A B : Fin 500000 → α) (e : Fin 500000) :
    (if h : e.val + 500000 < 500000 then A ⟨e.val + 500000, h⟩
      else B ⟨e.val + 500000 - 500000, by have := e.isLt; omega⟩) = B e :=
  (dif_neg (by omega)).trans (congrArg B (Fin.ext (Nat.add_sub_cancel ..)))

-- Two edge families summed block by block are one family over the stacked positions: first half, second half.
theorem sum_both (X Y : Fin 500000 → EReal) (g : Fin 1000000 → EReal)
    (hX : ∀ e : Fin 500000, X e = g ⟨e.val, by have := e.isLt; omega⟩)
    (hY : ∀ e : Fin 500000, Y e = g ⟨e.val + 500000, by have := e.isLt; omega⟩) :
    ∑ b : Fin 250, ((∑ r : Fin 2000, X (edge b r)) + ∑ r : Fin 2000, Y (edge b r)) = zero32 + ∑ j, g j := by
  rw [Finset.sum_add_distrib, sum_edge X, sum_edge Y, sum_halves, zero32_eq, zero_add]
  exact congrArg₂ (· + ·) (Finset.sum_congr rfl fun e _ => hX e) (Finset.sum_congr rfl fun e _ => hY e)

variable (ht : (⟨2, ![500000, 2]⟩ : Shape).Idx → BitVec 32) (hr : InRange ht)
  (mf mb : (⟨2, ![500000, 128]⟩ : Shape).Idx → EReal) (e : Fin 500000) (d : Fin 128)

theorem dst_lo : dst ht ⟨e.val, by have := e.isLt; omega⟩ = ht (ix2 e 1) := dif_pos e.isLt

theorem dst_hi : dst ht ⟨e.val + 500000, by have := e.isLt; omega⟩ = ht (ix2 e 0) :=
  half_hi (fun x => ht (ix2 x 1)) (fun x => ht (ix2 x 0)) e

theorem stk_lo : stk mf mb ⟨e.val, by have := e.isLt; omega⟩ d = mf (ix2 e d) := dif_pos e.isLt

theorem stk_hi : stk mf mb ⟨e.val + 500000, by have := e.isLt; omega⟩ d = mb (ix2 e d) :=
  half_hi (fun x => mf (ix2 x d)) (fun x => mb (ix2 x d)) e

include hr

theorem agg_eq (v : Fin 50000) (d : Fin 128) :
    agg ht mf mb (ix2 (⟨v.val, by have := v.isLt; omega⟩ : Fin 51200) d) = refAgg ht mf mb (ix2 v d) := by
  have hv : v.val < 2 ^ 32 := by have := v.isLt; omega
  exact sum_both (fun e => oh (ht (ix2 e 1)) v.val * mf (ix2 e d)) (fun e => oh (ht (ix2 e 0)) v.val * mb (ix2 e d))
    (fun j => if (dst ht j).toInt = (v.val : ℤ) then stk mf mb j d else 0)
    (fun e => by rw [oh_mul _ (hr e 1).1 _ hv, dst_lo, stk_lo])
    (fun e => by rw [oh_mul _ (hr e 0).1 _ hv, dst_hi, stk_hi])

theorem cnt_eq : cntS (cnt ht) = refCnt ht := by
  funext i
  have hv : (i 0).val < 2 ^ 32 := by have := idx2_lt0 i; omega
  unfold cntS cnt
  refine (Finset.sum_congr rfl fun b _ => add_comm _ _).trans ?_
  exact sum_both (fun e => oh (ht (ix2 e 1)) (i 0).val) (fun e => oh (ht (ix2 e 0)) (i 0).val)
    (fun j => if (dst ht j).toInt = ((i 0).val : ℤ) then Ideal.ofBits .f32 0x3F800000#32 else 0)
    (fun e => by rw [oh_eq_toInt _ (hr e 1).1 _ hv, dst_lo, one32_eq])
    (fun e => by rw [oh_eq_toInt _ (hr e 0).1 _ hv, dst_hi, one32_eq])

end Cert.Alg

end
-- ==== Proof.Alg.lean ====
import proofs.«423191_j44616120271607_3_alg».proof.Proof.Alg3
import proofs.«423191_j44616120271607_3_alg».proof.Proof.Alg4

noncomputable section

open scoped BigOperators

namespace Cert.Alg

open Cert.Spec Idealize.ShloMosaic Idealize.ShloMosaic.ValueIdx

theorem kernelOut_eq_refOut
    (H : (⟨2, ![50000, 128]⟩ : Shape).Idx → EReal) (E : (⟨2, ![500000, 128]⟩ : Shape).Idx → EReal)
    (ht : (⟨2, ![500000, 2]⟩ : Shape).Idx → BitVec 32) (Wf : (⟨2, ![256, 128]⟩ : Shape).Idx → EReal)
    (bf : (⟨1, ![128]⟩ : Shape).Idx → EReal) (Wb : (⟨2, ![256, 128]⟩ : Shape).Idx → EReal)
    (bb g b : (⟨1, ![128]⟩ : Shape).Idx → EReal) (hr : InRange ht) :
    kernelOut H E ht Wf bf Wb bb g b = refOut H E ht Wf bf Wb bb g b := by
  have ha : ∀ mf mb, aggS (agg ht mf mb) = refAgg ht mf mb := fun mf mb => funext fun i =>
    (agg_eq ht hr mf mb (i 0) (i 1)).trans (congrArg (refAgg ht mf mb) (eq_ix2 i).symm)
  unfold kernelOut refOut
  rw [msg_eq ht hr H E Wf bf 0, msg_eq ht hr H E Wb bb 1, ha, cnt_eq ht hr]

end Cert.Alg

end
-- ==== Proof.Pre.lean ====
import proofs.«423191_j44616120271607_3_alg».proof.Pre_finite_inputs
import proofs.«423191_j44616120271607_3_alg».proof.Proof.Spec
import Idealize.ShloMosaic.Lib.ReduceAll
import Idealize.ShloMosaic.Lib.StableHlo.Predicate

noncomputable section

namespace Cert.PreFacts

open Idealize.ShloMosaic Idealize.ShloMosaic.ValueIdx Cert.Pre_finite_inputs

instance : Subsingleton S_.Idx := ⟨fun a b => funext fun d => d.elim0⟩

theorem sge_iff (a b : BitVec 32) : IntOp.cmpi .sge a b = 1#1 ↔ b.toInt ≤ a.toInt := by
  unfold IntOp.cmpi
  simp only [BitVec.sle, StableHlo.Predicate.ofBool_eq_one_iff, decide_eq_true_eq]
theorem slt_iff (a b : BitVec 32) : IntOp.cmpi .slt a b = 1#1 ↔ a.toInt < b.toInt := by
  unfold IntOp.cmpi
  simp only [BitVec.slt, StableHlo.Predicate.ofBool_eq_one_iff, decide_eq_true_eq]

theorem inRange_of_pre [Facts] {F : FTy → Type} [FloatOps F]
    (a0 : FVec F S50000x128 .f32) (a1 : FVec F S500000x128 .f32) (a2 : IVec S500000x2 32) (a3 : FVec F S256x128 .f32)
    (a4 : FVec F S128 .f32) (a5 : FVec F S256x128 .f32) (a6 : FVec F S128 .f32) (a7 : FVec F S128 .f32) (a8 : FVec F S128 .f32)
    (h : fn (F := F) a0 a1 a2 a3 a4 a5 a6 a7 a8 = fun _ => 1#1) : Cert.Spec.InRange a2 := by
  have h0 := congrFun h ix0
  dsimp only [fn, fn_part1, fn_part2] at h0
  have hall := (IntOp.andi_eq_one.mp h0).2
  intro e k
  have hi := Host.reduce_andi_all _ _ _ _ _ hall (ix2 e k)
  obtain ⟨hge, hlt⟩ := IntOp.andi_eq_one.mp hi
  have h1 := (sge_iff _ _).mp hge
  have h2 := (slt_iff _ _).mp hlt
  have hb : ∀ (v : BitVec 32) (i : S500000x2.Idx),
      broadcastInDim S500000x2 ![] Facts.bcast_S_S500000x2 (constantI S_ 32 v) i = v := fun _ _ => rfl
  rw [hb] at h1 h2
  exact ⟨by simpa using h1, by simpa using h2⟩

end Cert.PreFacts

end
-- ==== Proof.lean ====
import proofs.«423191_j44616120271607_3_alg».proof.Defs
import proofs.«423191_j44616120271607_3_alg».proof.Proof.Gen.Kernel
import proofs.«423191_j44616120271607_3_alg».proof.Proof.Gen.KernelIdeal
import proofs.«423191_j44616120271607_3_alg».proof.Proof.Gen.ReferenceIdeal
import proofs.«423191_j44616120271607_3_alg».proof.Proof.Gen.Pre_finite_inputs
import proofs.«423191_j44616120271607_3_alg».proof.Proof.K.Halves
import proofs.«423191_j44616120271607_3_alg».proof.Proof.KI.Halves
import proofs.«423191_j44616120271607_3_alg».proof.Proof.KI.Val0
import proofs.«423191_j44616120271607_3_alg».proof.Proof.KI.Val1
import proofs.«423191_j44616120271607_3_alg».proof.Proof.KI.Val2
import proofs.«423191_j44616120271607_3_alg».proof.Proof.KI.Val3
import proofs.«423191_j44616120271607_3_alg».proof.Proof.KI.Chain
import proofs.«423191_j44616120271607_3_alg».proof.Proof.Ref
import proofs.«423191_j44616120271607_3_alg».proof.Proof.Alg
import proofs.«423191_j44616120271607_3_alg».proof.Proof.Pre
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun _ h c => (h c).2)
    (Cert.Kernel.Hand.run (F := Bits) Cert.Kernel.Hand.half0 Cert.Kernel.Hand.half1 Cert.Kernel.Hand.half2 Cert.Kernel.Hand.half3 m ρ)

open Cert.KernelIdeal.Hand in
theorem frame_ki : Cert.frame_KernelIdeal := fun m ρ _ =>
  (θ_run Cert.KernelIdeal.defs _ _).mono (fun _ h c => (h c).2) (run (F := Ideal) half0 half1 half2 half3 m ρ)

theorem frame_ri : Cert.frame_ReferenceIdeal := fun m ρ _ =>
  (θ_run Cert.ReferenceIdeal.defs _ _).mono (fun _ h c => (h c).2) (Cert.ReferenceIdeal.ValueP.run (F := Ideal) m ρ)

open Cert.KernelIdeal.Hand in
/-- Both results are one function of the arguments: the kernel's closed form, which is the reference's where every index word is in range. -/
theorem algebraic : Cert.algebraic_KernelIdeal_ReferenceIdeal := by
  intro m ρ m' ρ' hpre hagree
  refine ⟨_, (θ_run Cert.KernelIdeal.defs _ _).mono (fun _ h c => ⟨(h c).1.trans
      (result_eq half0 half1 half2 half3 m arrAt0_7 arrAt0_8 arrAt1_3 arrAt2_1 arrAt3_5 c), (h c).2⟩)
    (run (F := Ideal) half0 half1 half2 half3 m ρ), ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8⟩ := hagree c
  rw [Cert.ReferenceIdeal.ReadP.val_main_v71_eq, Cert.RefValue.ref_eq, e0, e1, e2, e3, e4, e5, e6, e7, e8]
  exact (Cert.Alg.kernelOut_eq_refOut _ _ _ _ _ _ _ _ _ (Cert.PreFacts.inRange_of_pre _ _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
